-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v95) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x128 : Shape := ⟨2, ![25000, 128]⟩
abbrev S400000x128 : Shape := ⟨2, ![400000, 128]⟩
abbrev S8x128 : Shape := ⟨2, ![8, 128]⟩
abbrev S400000 : Shape := ⟨1, ![400000]⟩
abbrev S8 : Shape := ⟨1, ![8]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩

class Facts : Prop where
  bcast_S_S25000x128 : S_.BroadcastsInDim S25000x128 (![] : Fin 0 → Fin S25000x128.rank)
  reducesTo_S25000x128_S_d0_1 : S25000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S8x128 : S_.BroadcastsInDim S8x128 (![] : Fin 0 → Fin S8x128.rank)
  reducesTo_S8x128_S_d0_1 : S8x128.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S400000 : S_.BroadcastsInDim S400000 (![] : Fin 0 → Fin S400000.rank)
  reducesTo_S400000_S_d0 : S400000.ReducesTo [0] S_

variable [Facts]

def fn_part6 {F : FTy → Type} [FloatOps F] (main_arg4 : IVec S400000 32) (main_v101 : IVec S_ 1) : IVec S_ 1 :=
  let main_c_40 : IVec S_ 32 := constantI S_ 32 0#32
  let main_v102 : IVec S400000 32 := broadcastInDim S400000 ![] bcast_S_S400000 main_c_40
  let main_v103 : IVec S400000 1 := cmpi .sge main_arg4 main_v102
  let main_c_41 : IVec S_ 1 := constantI S_ 1 1#1
  let main_v104 : IVec S_ 1 := (fun x v => Host.reduce IntOp.andi x v reducesTo_S400000_S_d0 h_S_) main_v103 main_c_41
  let main_v105 : IVec S_ 1 := andi main_v101 main_v104
  let main_c_42 : IVec S_ 32 := constantI S_ 32 25000#32
  let main_v106 : IVec S400000 32 := broadcastInDim S400000 ![] bcast_S_S400000 main_c_42
  let main_v107 : IVec S400000 1 := cmpi .slt main_arg4 main_v106
  let main_c_43 : IVec S_ 1 := constantI S_ 1 1#1
  let main_v108 : IVec S_ 1 := (fun x v => Host.reduce IntOp.andi x v reducesTo_S400000_S_d0 h_S_) main_v107 main_c_43
  let main_v109 : IVec S_ 1 := andi main_v105 main_v108
  main_v109

def fn_part5 {F : FTy → Type} [FloatOps F] (main_arg3 : IVec S400000 32) (main_arg4 : IVec S400000 32) (main_arg22 : FVec F S128 .f32) (main_v83 : IVec S_ 1) (main_v84 : FVec F S384x128 .f32) (main_cst_32 : FVec F S_ .f32) : IVec S_ 1 :=
  let main_v85 : FVec F S384x128 .f32 := broadcastInDim S384x128 ![] bcast_S_S384x128 main_cst_32
  let main_v86 : IVec S384x128 1 := cmpf .olt main_v84 main_v85
  let main_c_33 : IVec S_ 1 := constantI S_ 1 1#1
  let main_v87 : IVec S_ 1 := (fun x v => Host.reduce IntOp.andi x v reducesTo_S384x128_S_d0_1 h_S_) main_v86 main_c_33
  let main_v88 : IVec S_ 1 := andi main_v83 main_v87
  let main_v89 : FVec F S128 .f32 := Host.absf main_arg22
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_c_36 : IVec S_ 32 := constantI S_ 32 0#32
  let main_v94 : IVec S400000 32 := broadcastInDim S400000 ![] bcast_S_S400000 main_c_36
  let main_v95 : IVec S400000 1 := cmpi .sge main_arg3 main_v94
  let main_c_37 : IVec S_ 1 := constantI S_ 1 1#1
  let main_v96 : IVec S_ 1 := (fun x v => Host.reduce IntOp.andi x v reducesTo_S400000_S_d0 h_S_) main_v95 main_c_37
  let main_v97 : IVec S_ 1 := andi main_v93 main_v96
  let main_c_38 : IVec S_ 32 := constantI S_ 32 25000#32
  let main_v98 : IVec S400000 32 := broadcastInDim S400000 ![] bcast_S_S400000 main_c_38
  let main_v99 : IVec S400000 1 := cmpi .slt main_arg3 main_v98
  let main_c_39 : IVec S_ 1 := constantI S_ 1 1#1
  let main_v100 : IVec S_ 1 := (fun x v => Host.reduce IntOp.andi x v reducesTo_S400000_S_d0 h_S_) main_v99 main_c_39
  let main_v101 : IVec S_ 1 := andi main_v97 main_v100
  fn_part6 (F := F) main_arg4 main_v101

def fn_part4 {F : FTy → Type} [FloatOps F] (main_arg3 : IVec S400000 32) (main_arg4 : IVec S400000 32) (main_arg18 : FVec F S128 .f32) (main_arg19 : FVec F S128x128 .f32) (main_arg20 : FVec F S128 .f32) (main_arg21 : FVec F S384x128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg19
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg20
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S384x128 .f32 := Host.absf main_arg21
  let main_cst_32 : FVec F S_ .f32 := constant S_ .f32 0x7F800000#32
  fn_part5 (F := F) main_arg3 main_arg4 main_arg22 main_v83 main_v84 main_cst_32

def fn_part3 {F : FTy → Type} [FloatOps F] (main_arg3 : IVec S400000 32) (main_arg4 : IVec S400000 32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S384x128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg17
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg3 main_arg4 main_arg18 main_arg19 main_arg20 main_arg21 main_arg22 main_v63 main_v67

def fn_part2 {F : FTy → Type} [FloatOps F] (main_arg3 : IVec S400000 32) (main_arg4 : IVec S400000 32) (main_arg11 : FVec F S512x256 .f32) (main_arg12 : FVec F S256 .f32) (main_arg13 : FVec F S256x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S384x128 .f32) (main_arg22 : FVec F S128 .f32) (main_v33 : IVec S_ 1) : IVec S_ 1 :=
  let main_v34 : FVec F S512x256 .f32 := Host.absf main_arg11
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg13
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg3 main_arg4 main_arg15 main_arg16 main_arg17 main_arg18 main_arg19 main_arg20 main_arg21 main_arg22 main_v48 main_v49 main_v50

def fn_part1 {F : FTy → Type} [FloatOps F] (main_arg3 : IVec S400000 32) (main_arg4 : IVec S400000 32) (main_arg8 : FVec F S256 .f32) (main_arg9 : FVec F S256x128 .f32) (main_arg10 : FVec F S128 .f32) (main_arg11 : FVec F S512x256 .f32) (main_arg12 : FVec F S256 .f32) (main_arg13 : FVec F S256x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S384x128 .f32) (main_arg22 : FVec F S128 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg9
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg4 main_arg11 main_arg12 main_arg13 main_arg14 main_arg15 main_arg16 main_arg17 main_arg18 main_arg19 main_arg20 main_arg21 main_arg22 main_v33

def fn {F : FTy → Type} [FloatOps F] (main_arg0 : FVec F S25000x128 .f32) (main_arg1 : FVec F S400000x128 .f32) (main_arg2 : FVec F S8x128 .f32) (main_arg3 : IVec S400000 32) (main_arg4 : IVec S400000 32) (main_arg5 : IVec S8 32) (main_arg6 : IVec S8 32) (main_arg7 : FVec F S512x256 .f32) (main_arg8 : FVec F S256 .f32) (main_arg9 : FVec F S256x128 .f32) (main_arg10 : FVec F S128 .f32) (main_arg11 : FVec F S512x256 .f32) (main_arg12 : FVec F S256 .f32) (main_arg13 : FVec F S256x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S384x128 .f32) (main_arg22 : FVec F S128 .f32) : IVec S_ 1 :=
  let main_v0 : FVec F S25000x128 .f32 := Host.absf main_arg0
  let main_cst : FVec F S_ .f32 := constant S_ .f32 0x7F800000#32
  let main_v1 : FVec F S25000x128 .f32 := broadcastInDim S25000x128 ![] bcast_S_S25000x128 main_cst
  let main_v2 : IVec S25000x128 1 := cmpf .olt main_v0 main_v1
  let main_c : IVec S_ 1 := constantI S_ 1 1#1
  let main_v3 : IVec S_ 1 := (fun x v => Host.reduce IntOp.andi x v reducesTo_S25000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S512x256 .f32 := Host.absf main_arg7
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg3 main_arg4 main_arg8 main_arg9 main_arg10 main_arg11 main_arg12 main_arg13 main_arg14 main_arg15 main_arg16 main_arg17 main_arg18 main_arg19 main_arg20 main_arg21 main_arg22 main_v13 main_v16
-- ==== Kernel.lean ====
abbrev S25000x128 : Shape := ⟨2, ![25000, 128]⟩
abbrev S400000x128 : Shape := ⟨2, ![400000, 128]⟩
abbrev S8x128 : Shape := ⟨2, ![8, 128]⟩
abbrev S400000 : Shape := ⟨1, ![400000]⟩
abbrev S8 : Shape := ⟨1, ![8]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S7 : Shape := ⟨1, ![7]⟩
abbrev S8x1 : Shape := ⟨2, ![8, 1]⟩
abbrev S400000x512 : Shape := ⟨2, ![400000, 512]⟩
abbrev S1x256 : Shape := ⟨2, ![1, 256]⟩
abbrev S1x128 : Shape := ⟨2, ![1, 128]⟩
abbrev S3200x512 : Shape := ⟨2, ![3200, 512]⟩
abbrev S3200x128 : Shape := ⟨2, ![3200, 128]⟩
abbrev S3200x256 : Shape := ⟨2, ![3200, 256]⟩
abbrev S25000 : Shape := ⟨1, ![25000]⟩
abbrev S25000x1 : Shape := ⟨2, ![25000, 1]⟩
abbrev S8x384 : Shape := ⟨2, ![8, 384]⟩

abbrev nBuf : Space → Nat
  | .hbm => 294
  | .vmem => 14
  | .smem => 0
  | _ => 0

abbrev hbmTy0_0 (i : Nat) : BufTy := match i % 128 with
  | 0 => ⟨S25000x128, .f32⟩
  | 1 => ⟨S400000x128, .f32⟩
  | 2 => ⟨S8x128, .f32⟩
  | 3 => ⟨S400000, .i32⟩
  | 4 => ⟨S400000, .i32⟩
  | 5 => ⟨S8, .i32⟩
  | 6 => ⟨S8, .i32⟩
  | 7 => ⟨S512x256, .f32⟩
  | 8 => ⟨S256, .f32⟩
  | 9 => ⟨S256x128, .f32⟩
  | 10 => ⟨S128, .f32⟩
  | 11 => ⟨S512x256, .f32⟩
  | 12 => ⟨S256, .f32⟩
  | 13 => ⟨S256x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S384x128, .f32⟩
  | 22 => ⟨S128, .f32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S1, .i32⟩
  | 32 => ⟨S_, .i32⟩
  | 33 => ⟨S400000x1, .i32⟩
  | 34 => ⟨S400000x1, .i1⟩
  | 35 => ⟨S1x1, .i32⟩
  | 36 => ⟨S400000x1, .i32⟩
  | 37 => ⟨S400000x1, .i1⟩
  | 38 => ⟨S400000x1, .i1⟩
  | 39 => ⟨S_, .i1⟩
  | 40 => ⟨S400000, .i1⟩
  | 41 => ⟨S400000x128, .f32⟩
  | 42 => ⟨S400000x128, .i1⟩
  | 43 => ⟨S_, .f32⟩
  | 44 => ⟨S400000x128, .f32⟩
  | 45 => ⟨S400000x128, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S1, .i32⟩
  | 55 => ⟨S_, .i32⟩
  | 56 => ⟨S400000x1, .i32⟩
  | 57 => ⟨S400000x1, .i1⟩
  | 58 => ⟨S1x1, .i32⟩
  | 59 => ⟨S400000x1, .i32⟩
  | 60 => ⟨S400000x1, .i1⟩
  | 61 => ⟨S400000x1, .i1⟩
  | 62 => ⟨S_, .i1⟩
  | 63 => ⟨S400000, .i1⟩
  | 64 => ⟨S400000x128, .f32⟩
  | 65 => ⟨S400000x128, .i1⟩
  | 66 => ⟨S_, .f32⟩
  | 67 => ⟨S400000x128, .f32⟩
  | 68 => ⟨S400000x128, .f32⟩
  | 69 => ⟨S1, .i32⟩
  | 70 => ⟨S7, .i32⟩
  | 71 => ⟨S8, .i32⟩
  | 72 => ⟨S_, .i32⟩
  | 73 => ⟨S1, .i32⟩
  | 74 => ⟨S_, .i32⟩
  | 75 => ⟨S8, .i32⟩
  | 76 => ⟨S_, .i32⟩
  | 77 => ⟨S_, .i32⟩
  | 78 => ⟨S8, .i32⟩
  | 79 => ⟨S_, .i32⟩
  | 80 => ⟨S400000, .i32⟩
  | 81 => ⟨S_, .i32⟩
  | 82 => ⟨S8, .i32⟩
  | 83 => ⟨S8, .i1⟩
  | 84 => ⟨S_, .i32⟩
  | 85 => ⟨S8, .i32⟩
  | 86 => ⟨S8, .i32⟩
  | 87 => ⟨S8, .i32⟩
  | 88 => ⟨S8x1, .i32⟩
  | 89 => ⟨S_, .i32⟩
  | 90 => ⟨S8, .i32⟩
  | 91 => ⟨S400000, .i32⟩
  | 92 => ⟨S_, .i32⟩
  | 93 => ⟨S_, .i32⟩
  | 94 => ⟨S400000, .i32⟩
  | 95 => ⟨S_, .i32⟩
  | 96 => ⟨S400000, .i32⟩
  | 97 => ⟨S400000, .i32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S1, .i32⟩
  | 107 => ⟨S_, .i32⟩
  | 108 => ⟨S400000x1, .i32⟩
  | 109 => ⟨S400000x1, .i1⟩
  | 110 => ⟨S1x1, .i32⟩
  | 111 => ⟨S400000x1, .i32⟩
  | 112 => ⟨S400000x1, .i1⟩
  | 113 => ⟨S400000x1, .i1⟩
  | 114 => ⟨S_, .i1⟩
  | 115 => ⟨S400000, .i1⟩
  | 116 => ⟨S400000x128, .f32⟩
  | 117 => ⟨S400000x128, .i1⟩
  | 118 => ⟨S_, .f32⟩
  | 119 => ⟨S400000x128, .f32⟩
  | 120 => ⟨S400000x128, .f32⟩
  | 121 => ⟨S400000x512, .f32⟩
  | 122 => ⟨S400000x512, .bf16⟩
  | 123 => ⟨S512x256, .bf16⟩
  | 124 => ⟨S256x128, .bf16⟩
  | 125 => ⟨S512x256, .bf16⟩
  | 126 => ⟨S256x128, .bf16⟩
  | 127 => ⟨S1x256, .f32⟩
  | _ => ⟨S25000x128, .f32⟩

abbrev hbmTy0_1 (i : Nat) : BufTy := match i % 128 with
  | 0 => ⟨S1x128, .f32⟩
  | 1 => ⟨S1x256, .f32⟩
  | 2 => ⟨S1x128, .f32⟩
  | 3 => ⟨S400000x128, .f32⟩
  | 4 => ⟨S400000x128, .f32⟩
  | 5 => ⟨S_, .f32⟩
  | 6 => ⟨S25000x128, .f32⟩
  | 7 => ⟨S400000x1, .i32⟩
  | 8 => ⟨S25000x128, .f32⟩
  | 9 => ⟨S8, .i32⟩
  | 10 => ⟨S1, .i32⟩
  | 11 => ⟨S7, .i32⟩
  | 12 => ⟨S8, .i32⟩
  | 13 => ⟨S_, .i32⟩
  | 14 => ⟨S1, .i32⟩
  | 15 => ⟨S_, .i32⟩
  | 16 => ⟨S8, .i32⟩
  | 17 => ⟨S_, .i32⟩
  | 18 => ⟨S_, .i32⟩
  | 19 => ⟨S8, .i32⟩
  | 20 => ⟨S_, .i32⟩
  | 21 => ⟨S25000, .i32⟩
  | 22 => ⟨S_, .i32⟩
  | 23 => ⟨S8, .i32⟩
  | 24 => ⟨S8, .i1⟩
  | 25 => ⟨S_, .i32⟩
  | 26 => ⟨S8, .i32⟩
  | 27 => ⟨S8, .i32⟩
  | 28 => ⟨S8, .i32⟩
  | 29 => ⟨S8x1, .i32⟩
  | 30 => ⟨S_, .i32⟩
  | 31 => ⟨S8, .i32⟩
  | 32 => ⟨S25000, .i32⟩
  | 33 => ⟨S_, .i32⟩
  | 34 => ⟨S_, .i32⟩
  | 35 => ⟨S25000, .i32⟩
  | 36 => ⟨S_, .i32⟩
  | 37 => ⟨S25000, .i32⟩
  | 38 => ⟨S25000, .i32⟩
  | 39 => ⟨S_, .i32⟩
  | 40 => ⟨S25000, .i32⟩
  | 41 => ⟨S25000, .i1⟩
  | 42 => ⟨S_, .i32⟩
  | 43 => ⟨S25000, .i32⟩
  | 44 => ⟨S25000, .i32⟩
  | 45 => ⟨S25000, .i32⟩
  | 46 => ⟨S25000x1, .i32⟩
  | 47 => ⟨S1, .i32⟩
  | 48 => ⟨S_, .i32⟩
  | 49 => ⟨S25000x1, .i32⟩
  | 50 => ⟨S25000x1, .i1⟩
  | 51 => ⟨S1x1, .i32⟩
  | 52 => ⟨S25000x1, .i32⟩
  | 53 => ⟨S25000x1, .i1⟩
  | 54 => ⟨S25000x1, .i1⟩
  | 55 => ⟨S_, .i1⟩
  | 56 => ⟨S25000, .i1⟩
  | 57 => ⟨S25000, .i32⟩
  | 58 => ⟨S_, .i32⟩
  | 59 => ⟨S25000, .i32⟩
  | 60 => ⟨S25000, .i32⟩
  | 61 => ⟨S8, .i32⟩
  | 62 => ⟨S1, .i32⟩
  | 63 => ⟨S7, .i32⟩
  | 64 => ⟨S8, .i32⟩
  | 65 => ⟨S_, .i32⟩
  | 66 => ⟨S1, .i32⟩
  | 67 => ⟨S_, .i32⟩
  | 68 => ⟨S8, .i32⟩
  | 69 => ⟨S_, .i32⟩
  | 70 => ⟨S_, .i32⟩
  | 71 => ⟨S8, .i32⟩
  | 72 => ⟨S_, .i32⟩
  | 73 => ⟨S400000, .i32⟩
  | 74 => ⟨S_, .i32⟩
  | 75 => ⟨S8, .i32⟩
  | 76 => ⟨S8, .i1⟩
  | 77 => ⟨S_, .i32⟩
  | 78 => ⟨S8, .i32⟩
  | 79 => ⟨S8, .i32⟩
  | 80 => ⟨S8, .i32⟩
  | 81 => ⟨S8x1, .i32⟩
  | 82 => ⟨S_, .i32⟩
  | 83 => ⟨S8, .i32⟩
  | 84 => ⟨S400000, .i32⟩
  | 85 => ⟨S_, .i32⟩
  | 86 => ⟨S_, .i32⟩
  | 87 => ⟨S400000, .i32⟩
  | 88 => ⟨S_, .i32⟩
  | 89 => ⟨S400000, .i32⟩
  | 90 => ⟨S400000, .i32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S1, .i32⟩
  | 100 => ⟨S_, .i32⟩
  | 101 => ⟨S400000x1, .i32⟩
  | 102 => ⟨S400000x1, .i1⟩
  | 103 => ⟨S1x1, .i32⟩
  | 104 => ⟨S400000x1, .i32⟩
  | 105 => ⟨S400000x1, .i1⟩
  | 106 => ⟨S400000x1, .i1⟩
  | 107 => ⟨S_, .i1⟩
  | 108 => ⟨S400000, .i1⟩
  | 109 => ⟨S400000, .i32⟩
  | 110 => ⟨S_, .i32⟩
  | 111 => ⟨S400000, .i32⟩
  | 112 => ⟨S400000, .i32⟩
  | 113 => ⟨S_, .f32⟩
  | 114 => ⟨S8x128, .f32⟩
  | 115 => ⟨S25000x1, .i32⟩
  | 116 => ⟨S8x128, .f32⟩
  | 117 => ⟨S_, .f32⟩
  | 118 => ⟨S8x128, .f32⟩
  | 119 => ⟨S400000x1, .i32⟩
  | 120 => ⟨S8x128, .f32⟩
  | 121 => ⟨S8x128, .f32⟩
  | 122 => ⟨S1x128, .f32⟩
  | 123 => ⟨S8x128, .f32⟩
  | 124 => ⟨S8x128, .f32⟩
  | 125 => ⟨S_, .f32⟩
  | 126 => ⟨S8x128, .f32⟩
  | 127 => ⟨S8x128, .i1⟩
  | _ => ⟨S25000x128, .f32⟩

abbrev hbmTy0_2 (i : Nat) : BufTy := match i % 128 with
  | 0 => ⟨S_, .f32⟩
  | 1 => ⟨S8x128, .f32⟩
  | 2 => ⟨S8x128, .f32⟩
  | 3 => ⟨S8x128, .f32⟩
  | 4 => ⟨S8x128, .f32⟩
  | 5 => ⟨S1x128, .f32⟩
  | 6 => ⟨S8x128, .f32⟩
  | 7 => ⟨S8x128, .f32⟩
  | 8 => ⟨S_, .f32⟩
  | 9 => ⟨S8x128, .f32⟩
  | 10 => ⟨S8x128, .i1⟩
  | 11 => ⟨S_, .f32⟩
  | 12 => ⟨S8x128, .f32⟩
  | 13 => ⟨S8x128, .f32⟩
  | 14 => ⟨S8x128, .f32⟩
  | 15 => ⟨S8x128, .f32⟩
  | 16 => ⟨S1x128, .f32⟩
  | 17 => ⟨S8x128, .f32⟩
  | 18 => ⟨S8x128, .f32⟩
  | 19 => ⟨S_, .f32⟩
  | 20 => ⟨S8x128, .f32⟩
  | 21 => ⟨S8x128, .i1⟩
  | 22 => ⟨S_, .f32⟩
  | 23 => ⟨S8x128, .f32⟩
  | 24 => ⟨S8x128, .f32⟩
  | 25 => ⟨S8x128, .f32⟩
  | 26 => ⟨S8x384, .f32⟩
  | 27 => ⟨S8x128, .f32⟩
  | 28 => ⟨S1x128, .f32⟩
  | 29 => ⟨S8x128, .f32⟩
  | 30 => ⟨S8x128, .f32⟩
  | 31 => ⟨S_, .f32⟩
  | 32 => ⟨S8x128, .f32⟩
  | 33 => ⟨S8x128, .i1⟩
  | 34 => ⟨S_, .f32⟩
  | 35 => ⟨S8x128, .f32⟩
  | 36 => ⟨S8x128, .f32⟩
  | 37 => ⟨S8x128, .f32⟩
  | _ => ⟨S25000x128, .f32⟩

abbrev hbmTy (i : Nat) : BufTy := match i / 128 with
  | 0 => hbmTy0_0 i
  | 1 => hbmTy0_1 i
  | 2 => hbmTy0_2 i
  | _ => ⟨S25000x128, .f32⟩

abbrev bufTy : (tb : Table) → Fin (tcTables nBuf tb) → BufTy
  | .hbm, ⟨i, _⟩ => hbmTy i
  | .local _ .vmem, ⟨0, _⟩ => ⟨S3200x512, .bf16⟩
  | .local _ .vmem, ⟨1, _⟩ => ⟨S3200x512, .bf16⟩
  | .local _ .vmem, ⟨2, _⟩ => ⟨S512x256, .bf16⟩
  | .local _ .vmem, ⟨3, _⟩ => ⟨S1x256, .f32⟩
  | .local _ .vmem, ⟨4, _⟩ => ⟨S256x128, .bf16⟩
  | .local _ .vmem, ⟨5, _⟩ => ⟨S1x128, .f32⟩
  | .local _ .vmem, ⟨6, _⟩ => ⟨S512x256, .bf16⟩
  | .local _ .vmem, ⟨7, _⟩ => ⟨S1x256, .f32⟩
  | .local _ .vmem, ⟨8, _⟩ => ⟨S256x128, .bf16⟩
  | .local _ .vmem, ⟨9, _⟩ => ⟨S1x128, .f32⟩
  | .local _ .vmem, ⟨10, _⟩ => ⟨S3200x128, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | _, _ => ⟨S25000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v0 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v1 : Ref sig .tc := ⟨.hbm, 68, rfl⟩
abbrev main_call2_v0 : Ref sig .tc := ⟨.hbm, 69, rfl⟩
abbrev main_call2_v1 : Ref sig .tc := ⟨.hbm, 70, rfl⟩
abbrev main_v2 : Ref sig .tc := ⟨.hbm, 71, rfl⟩
abbrev main_c : Ref sig .tc := ⟨.hbm, 72, rfl⟩
abbrev main_v3 : Ref sig .tc := ⟨.hbm, 73, rfl⟩
abbrev main_c_0 : Ref sig .tc := ⟨.hbm, 74, rfl⟩
abbrev main_v4 : Ref sig .tc := ⟨.hbm, 75, rfl⟩
abbrev main_call3_call0_c : Ref sig .tc := ⟨.hbm, 76, rfl⟩
abbrev main_call3_call0_v0 : Ref sig .tc := ⟨.hbm, 77, rfl⟩
abbrev main_v5 : Ref sig .tc := ⟨.hbm, 78, rfl⟩
abbrev main_c_1 : Ref sig .tc := ⟨.hbm, 79, rfl⟩
abbrev main_v6 : Ref sig .tc := ⟨.hbm, 80, rfl⟩
abbrev main_c_2 : Ref sig .tc := ⟨.hbm, 81, rfl⟩
abbrev main_v7 : Ref sig .tc := ⟨.hbm, 82, rfl⟩
abbrev main_v8 : Ref sig .tc := ⟨.hbm, 83, rfl⟩
abbrev main_c_3 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩
abbrev main_c_4 : Ref sig .tc := ⟨.hbm, 89, rfl⟩
abbrev main_v13 : Ref sig .tc := ⟨.hbm, 90, rfl⟩
abbrev main_v14 : Ref sig .tc := ⟨.hbm, 91, rfl⟩
abbrev main_call4_call0_c : Ref sig .tc := ⟨.hbm, 92, rfl⟩
abbrev main_call4_call0_v0 : Ref sig .tc := ⟨.hbm, 93, rfl⟩
abbrev main_v15 : Ref sig .tc := ⟨.hbm, 94, rfl⟩
abbrev main_c_5 : Ref sig .tc := ⟨.hbm, 95, rfl⟩
abbrev main_v16 : Ref sig .tc := ⟨.hbm, 96, rfl⟩
abbrev main_v17 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_v14 : Ref sig .tc := ⟨.hbm, 117, rfl⟩
abbrev main_call5_cst : Ref sig .tc := ⟨.hbm, 118, rfl⟩
abbrev main_call5_v15 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_v22 : Ref sig .tc := ⟨.hbm, 124, rfl⟩
abbrev main_v23 : Ref sig .tc := ⟨.hbm, 125, rfl⟩
abbrev main_v24 : Ref sig .tc := ⟨.hbm, 126, rfl⟩
abbrev main_v25 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_v29_0 : Ref sig .tc := ⟨.hbm, 131, rfl⟩
abbrev main_v29_1 : Ref sig .tc := ⟨.hbm, 132, rfl⟩
abbrev main_cst : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_call6_v0 : Ref sig .tc := ⟨.hbm, 138, rfl⟩
abbrev main_call6_v1 : Ref sig .tc := ⟨.hbm, 139, rfl⟩
abbrev main_v34 : Ref sig .tc := ⟨.hbm, 140, rfl⟩
abbrev main_c_6 : Ref sig .tc := ⟨.hbm, 141, rfl⟩
abbrev main_v35 : Ref sig .tc := ⟨.hbm, 142, rfl⟩
abbrev main_c_7 : Ref sig .tc := ⟨.hbm, 143, rfl⟩
abbrev main_v36 : Ref sig .tc := ⟨.hbm, 144, rfl⟩
abbrev main_call7_call0_c : Ref sig .tc := ⟨.hbm, 145, rfl⟩
abbrev main_call7_call0_v0 : Ref sig .tc := ⟨.hbm, 146, rfl⟩
abbrev main_v37 : Ref sig .tc := ⟨.hbm, 147, rfl⟩
abbrev main_c_8 : Ref sig .tc := ⟨.hbm, 148, rfl⟩
abbrev main_v38 : Ref sig .tc := ⟨.hbm, 149, rfl⟩
abbrev main_c_9 : Ref sig .tc := ⟨.hbm, 150, rfl⟩
abbrev main_v39 : Ref sig .tc := ⟨.hbm, 151, rfl⟩
abbrev main_v40 : Ref sig .tc := ⟨.hbm, 152, rfl⟩
abbrev main_c_10 : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_v44 : Ref sig .tc := ⟨.hbm, 157, rfl⟩
abbrev main_c_11 : Ref sig .tc := ⟨.hbm, 158, rfl⟩
abbrev main_v45 : Ref sig .tc := ⟨.hbm, 159, rfl⟩
abbrev main_v46 : Ref sig .tc := ⟨.hbm, 160, rfl⟩
abbrev main_call8_call0_c : Ref sig .tc := ⟨.hbm, 161, rfl⟩
abbrev main_call8_call0_v0 : Ref sig .tc := ⟨.hbm, 162, rfl⟩
abbrev main_v47 : Ref sig .tc := ⟨.hbm, 163, rfl⟩
abbrev main_c_12 : Ref sig .tc := ⟨.hbm, 164, rfl⟩
abbrev main_v48 : Ref sig .tc := ⟨.hbm, 165, rfl⟩
abbrev main_v49 : Ref sig .tc := ⟨.hbm, 166, rfl⟩
abbrev main_call9_c : Ref sig .tc := ⟨.hbm, 167, rfl⟩
abbrev main_call9_v0 : Ref sig .tc := ⟨.hbm, 168, rfl⟩
abbrev main_call9_v1 : Ref sig .tc := ⟨.hbm, 169, rfl⟩
abbrev main_call9_c_0 : Ref sig .tc := ⟨.hbm, 170, rfl⟩
abbrev main_call9_v2 : Ref sig .tc := ⟨.hbm, 171, rfl⟩
abbrev main_call9_v3 : Ref sig .tc := ⟨.hbm, 172, rfl⟩
abbrev main_call9_v4 : Ref sig .tc := ⟨.hbm, 173, rfl⟩
abbrev main_call9_v5 : Ref sig .tc := ⟨.hbm, 174, rfl⟩
abbrev main_call9_c_1 : Ref sig .tc := ⟨.hbm, 175, rfl⟩
abbrev main_call9_c_2 : Ref sig .tc := ⟨.hbm, 176, rfl⟩
abbrev main_call9_v6 : Ref sig .tc := ⟨.hbm, 177, rfl⟩
abbrev main_call9_v7 : Ref sig .tc := ⟨.hbm, 178, rfl⟩
abbrev main_call9_v8 : Ref sig .tc := ⟨.hbm, 179, rfl⟩
abbrev main_call9_v9 : Ref sig .tc := ⟨.hbm, 180, rfl⟩
abbrev main_call9_v10 : Ref sig .tc := ⟨.hbm, 181, rfl⟩
abbrev main_call9_v11 : Ref sig .tc := ⟨.hbm, 182, rfl⟩
abbrev main_call9_c_3 : Ref sig .tc := ⟨.hbm, 183, rfl⟩
abbrev main_call9_v12 : Ref sig .tc := ⟨.hbm, 184, rfl⟩
abbrev main_call9_v13 : Ref sig .tc := ⟨.hbm, 185, rfl⟩
abbrev main_call9_c_4 : Ref sig .tc := ⟨.hbm, 186, rfl⟩
abbrev main_call9_v14 : Ref sig .tc := ⟨.hbm, 187, rfl⟩
abbrev main_v50 : Ref sig .tc := ⟨.hbm, 188, rfl⟩
abbrev main_v51 : Ref sig .tc := ⟨.hbm, 189, rfl⟩
abbrev main_call10_v0 : Ref sig .tc := ⟨.hbm, 190, rfl⟩
abbrev main_call10_v1 : Ref sig .tc := ⟨.hbm, 191, rfl⟩
abbrev main_v52 : Ref sig .tc := ⟨.hbm, 192, rfl⟩
abbrev main_c_13 : Ref sig .tc := ⟨.hbm, 193, rfl⟩
abbrev main_v53 : Ref sig .tc := ⟨.hbm, 194, rfl⟩
abbrev main_c_14 : Ref sig .tc := ⟨.hbm, 195, rfl⟩
abbrev main_v54 : Ref sig .tc := ⟨.hbm, 196, rfl⟩
abbrev main_call11_call0_c : Ref sig .tc := ⟨.hbm, 197, rfl⟩
abbrev main_call11_call0_v0 : Ref sig .tc := ⟨.hbm, 198, rfl⟩
abbrev main_v55 : Ref sig .tc := ⟨.hbm, 199, rfl⟩
abbrev main_c_15 : Ref sig .tc := ⟨.hbm, 200, rfl⟩
abbrev main_v56 : Ref sig .tc := ⟨.hbm, 201, rfl⟩
abbrev main_c_16 : Ref sig .tc := ⟨.hbm, 202, rfl⟩
abbrev main_v57 : Ref sig .tc := ⟨.hbm, 203, rfl⟩
abbrev main_v58 : Ref sig .tc := ⟨.hbm, 204, rfl⟩
abbrev main_c_17 : Ref sig .tc := ⟨.hbm, 205, rfl⟩
abbrev main_v59 : Ref sig .tc := ⟨.hbm, 206, rfl⟩
abbrev main_v60 : Ref sig .tc := ⟨.hbm, 207, rfl⟩
abbrev main_v61 : Ref sig .tc := ⟨.hbm, 208, rfl⟩
abbrev main_v62 : Ref sig .tc := ⟨.hbm, 209, rfl⟩
abbrev main_c_18 : Ref sig .tc := ⟨.hbm, 210, rfl⟩
abbrev main_v63 : Ref sig .tc := ⟨.hbm, 211, rfl⟩
abbrev main_v64 : Ref sig .tc := ⟨.hbm, 212, rfl⟩
abbrev main_call12_call0_c : Ref sig .tc := ⟨.hbm, 213, rfl⟩
abbrev main_call12_call0_v0 : Ref sig .tc := ⟨.hbm, 214, rfl⟩
abbrev main_v65 : Ref sig .tc := ⟨.hbm, 215, rfl⟩
abbrev main_c_19 : Ref sig .tc := ⟨.hbm, 216, rfl⟩
abbrev main_v66 : Ref sig .tc := ⟨.hbm, 217, rfl⟩
abbrev main_v67 : Ref sig .tc := ⟨.hbm, 218, rfl⟩
abbrev main_call13_c : Ref sig .tc := ⟨.hbm, 219, rfl⟩
abbrev main_call13_v0 : Ref sig .tc := ⟨.hbm, 220, rfl⟩
abbrev main_call13_v1 : Ref sig .tc := ⟨.hbm, 221, rfl⟩
abbrev main_call13_c_0 : Ref sig .tc := ⟨.hbm, 222, rfl⟩
abbrev main_call13_v2 : Ref sig .tc := ⟨.hbm, 223, rfl⟩
abbrev main_call13_v3 : Ref sig .tc := ⟨.hbm, 224, rfl⟩
abbrev main_call13_v4 : Ref sig .tc := ⟨.hbm, 225, rfl⟩
abbrev main_call13_v5 : Ref sig .tc := ⟨.hbm, 226, rfl⟩
abbrev main_call13_c_1 : Ref sig .tc := ⟨.hbm, 227, rfl⟩
abbrev main_call13_c_2 : Ref sig .tc := ⟨.hbm, 228, rfl⟩
abbrev main_call13_v6 : Ref sig .tc := ⟨.hbm, 229, rfl⟩
abbrev main_call13_v7 : Ref sig .tc := ⟨.hbm, 230, rfl⟩
abbrev main_call13_v8 : Ref sig .tc := ⟨.hbm, 231, rfl⟩
abbrev main_call13_v9 : Ref sig .tc := ⟨.hbm, 232, rfl⟩
abbrev main_call13_v10 : Ref sig .tc := ⟨.hbm, 233, rfl⟩
abbrev main_call13_v11 : Ref sig .tc := ⟨.hbm, 234, rfl⟩
abbrev main_call13_c_3 : Ref sig .tc := ⟨.hbm, 235, rfl⟩
abbrev main_call13_v12 : Ref sig .tc := ⟨.hbm, 236, rfl⟩
abbrev main_call13_v13 : Ref sig .tc := ⟨.hbm, 237, rfl⟩
abbrev main_call13_c_4 : Ref sig .tc := ⟨.hbm, 238, rfl⟩
abbrev main_call13_v14 : Ref sig .tc := ⟨.hbm, 239, rfl⟩
abbrev main_v68 : Ref sig .tc := ⟨.hbm, 240, rfl⟩
abbrev main_cst_20 : Ref sig .tc := ⟨.hbm, 241, rfl⟩
abbrev main_v69 : Ref sig .tc := ⟨.hbm, 242, rfl⟩
abbrev main_v70 : Ref sig .tc := ⟨.hbm, 243, rfl⟩
abbrev main_v71 : Ref sig .tc := ⟨.hbm, 244, rfl⟩
abbrev main_cst_21 : Ref sig .tc := ⟨.hbm, 245, rfl⟩
abbrev main_v72 : Ref sig .tc := ⟨.hbm, 246, rfl⟩
abbrev main_v73 : Ref sig .tc := ⟨.hbm, 247, rfl⟩
abbrev main_v74 : Ref sig .tc := ⟨.hbm, 248, rfl⟩
abbrev main_v75 : Ref sig .tc := ⟨.hbm, 249, rfl⟩
abbrev main_v76 : Ref sig .tc := ⟨.hbm, 250, rfl⟩
abbrev main_v77 : Ref sig .tc := ⟨.hbm, 251, rfl⟩
abbrev main_v78 : Ref sig .tc := ⟨.hbm, 252, rfl⟩
abbrev main_call14_cst : Ref sig .tc := ⟨.hbm, 253, rfl⟩
abbrev main_call14_v0 : Ref sig .tc := ⟨.hbm, 254, rfl⟩
abbrev main_call14_v1 : Ref sig .tc := ⟨.hbm, 255, rfl⟩
abbrev main_call14_cst_0 : Ref sig .tc := ⟨.hbm, 256, rfl⟩
abbrev main_call14_v2 : Ref sig .tc := ⟨.hbm, 257, rfl⟩
abbrev main_call14_v3 : Ref sig .tc := ⟨.hbm, 258, rfl⟩
abbrev main_v79 : Ref sig .tc := ⟨.hbm, 259, rfl⟩
abbrev main_v80 : Ref sig .tc := ⟨.hbm, 260, rfl⟩
abbrev main_v81 : Ref sig .tc := ⟨.hbm, 261, rfl⟩
abbrev main_v82 : Ref sig .tc := ⟨.hbm, 262, rfl⟩
abbrev main_v83 : Ref sig .tc := ⟨.hbm, 263, rfl⟩
abbrev main_call15_cst : Ref sig .tc := ⟨.hbm, 264, rfl⟩
abbrev main_call15_v0 : Ref sig .tc := ⟨.hbm, 265, rfl⟩
abbrev main_call15_v1 : Ref sig .tc := ⟨.hbm, 266, rfl⟩
abbrev main_call15_cst_0 : Ref sig .tc := ⟨.hbm, 267, rfl⟩
abbrev main_call15_v2 : Ref sig .tc := ⟨.hbm, 268, rfl⟩
abbrev main_call15_v3 : Ref sig .tc := ⟨.hbm, 269, rfl⟩
abbrev main_v84 : Ref sig .tc := ⟨.hbm, 270, rfl⟩
abbrev main_v85 : Ref sig .tc := ⟨.hbm, 271, rfl⟩
abbrev main_v86 : Ref sig .tc := ⟨.hbm, 272, rfl⟩
abbrev main_v87 : Ref sig .tc := ⟨.hbm, 273, rfl⟩
abbrev main_v88 : Ref sig .tc := ⟨.hbm, 274, rfl⟩
abbrev main_call16_cst : Ref sig .tc := ⟨.hbm, 275, rfl⟩
abbrev main_call16_v0 : Ref sig .tc := ⟨.hbm, 276, rfl⟩
abbrev main_call16_v1 : Ref sig .tc := ⟨.hbm, 277, rfl⟩
abbrev main_call16_cst_0 : Ref sig .tc := ⟨.hbm, 278, rfl⟩
abbrev main_call16_v2 : Ref sig .tc := ⟨.hbm, 279, rfl⟩
abbrev main_call16_v3 : Ref sig .tc := ⟨.hbm, 280, rfl⟩
abbrev main_v89 : Ref sig .tc := ⟨.hbm, 281, rfl⟩
abbrev main_v90 : Ref sig .tc := ⟨.hbm, 282, rfl⟩
abbrev main_v91 : Ref sig .tc := ⟨.hbm, 283, rfl⟩
abbrev main_v92 : Ref sig .tc := ⟨.hbm, 284, rfl⟩
abbrev main_v93 : Ref sig .tc := ⟨.hbm, 285, rfl⟩
abbrev main_v94 : Ref sig .tc := ⟨.hbm, 286, rfl⟩
abbrev main_call17_cst : Ref sig .tc := ⟨.hbm, 287, rfl⟩
abbrev main_call17_v0 : Ref sig .tc := ⟨.hbm, 288, rfl⟩
abbrev main_call17_v1 : Ref sig .tc := ⟨.hbm, 289, rfl⟩
abbrev main_call17_cst_0 : Ref sig .tc := ⟨.hbm, 290, rfl⟩
abbrev main_call17_v2 : Ref sig .tc := ⟨.hbm, 291, rfl⟩
abbrev main_call17_v3 : Ref sig .tc := ⟨.hbm, 292, rfl⟩
abbrev main_v95 : Ref sig .tc := ⟨.hbm, 293, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3200x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3200x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S8_S1_7 : S8.Slices ![7] S1
  slices_S8_S7_0 : S8.Slices ![0] S7
  concatenates_S1_S7_S8_d0 : Shape.Concatenates [S1, S7] S8 0
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  bcast_S_S8 : S_.BroadcastsInDim S8 (![] : Fin 0 → Fin S8.rank)
  bcast_S8_S8x1_0 : S8.BroadcastsInDim S8x1 (![0] : Fin 1 → Fin S8x1.rank)
  reduceWindows_S400000_S400000_w400000s1p399999_0 : S400000.ReduceWindows (![400000] : Fin 1 → Nat) ![1] ![399999] ![0] S400000
  concatenates_S400000x128_S400000x128_S400000x128_S400000x128_S400000x512_d1 : Shape.Concatenates [S400000x128, S400000x128, S400000x128, S400000x128] S400000x512 1
  bitsLt_bf16_f32 : FTy.bits .bf16 < FTy.bits .f32
  shapeCasts_S256_S1x256 : S256.ShapeCasts S1x256
  shapeCasts_S128_S1x128 : S128.ShapeCasts S1x128
  inb_S3200x512_S3200x512_0_0 : ∀ a, (![0, 0] : Fin 2 → Nat) a + S3200x512.size a ≤ S3200x512.size a
  h_S3200x512 : 0 < S3200x512.numel
  shapeCasts_S3200x512_S3200x512 : S3200x512.ShapeCasts S3200x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S3200x128_S3200x128_0_0 : ∀ a, (![0, 0] : Fin 2 → Nat) a + S3200x128.size a ≤ S3200x128.size a
  h_S3200x128 : 0 < S3200x128.numel
  bcast_S_S25000x128 : S_.BroadcastsInDim S25000x128 (![] : Fin 0 → Fin S25000x128.rank)
  bcast_S_S25000 : S_.BroadcastsInDim S25000 (![] : Fin 0 → Fin S25000.rank)
  reduceWindows_S25000_S25000_w25000s1p24999_0 : S25000.ReduceWindows (![25000] : Fin 1 → Nat) ![1] ![24999] ![0] S25000
  bcast_S25000_S25000x1_0 : S25000.BroadcastsInDim S25000x1 (![0] : Fin 1 → Fin S25000x1.rank)
  bcast_S_S25000x1 : S_.BroadcastsInDim S25000x1 (![] : Fin 0 → Fin S25000x1.rank)
  bcast_S1x1_S25000x1_0_1 : S1x1.BroadcastsInDim S25000x1 (![0, 1] : Fin 2 → Fin S25000x1.rank)
  reducesTo_S25000x1_S25000_d1 : S25000x1.ReducesTo [1] S25000
  bcast_S_S8x128 : S_.BroadcastsInDim S8x128 (![] : Fin 0 → Fin S8x128.rank)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  concatenates_S8x128_S8x128_S8x128_S8x384_d1 : Shape.Concatenates [S8x128, S8x128, S8x128] S8x384 1
  gather_S25000x128_S400000x1_S400000x128_1_0_n_n_0_1_1128_wf : GatherDims.WF S25000x128 S400000x1 S400000x128 [1] [0] [] [0] [] 1 ![1, 128]
  scatter_S8_S1_S__n_0_0_0_wf : ScatterDims.WF S8 S1 S_ [] [0] [0] 0
  scatter_S400000_S8x1_S8_n_0_0_1_wf : ScatterDims.WF S400000 S8x1 S8 [] [0] [0] 1
  gather_S8x128_S400000x1_S400000x128_1_0_n_n_0_1_1128_wf : GatherDims.WF S8x128 S400000x1 S400000x128 [1] [0] [] [0] [] 1 ![1, 128]
  dot_S3200x512_S512x256_S3200x256_1_0_0_1_n_n_wf : DotDims.WF S3200x512 S512x256 S3200x256 [1] [0] [0] [1] [] []
  dot_S3200x256_S256x128_S3200x128_1_0_0_1_n_n_wf : DotDims.WF S3200x256 S256x128 S3200x128 [1] [0] [0] [1] [] []
  scatter_S25000x128_S400000x1_S400000x128_1_0_0_1_wf : ScatterDims.WF S25000x128 S400000x1 S400000x128 [1] [0] [0] 1
  scatter_S25000_S8x1_S8_n_0_0_1_wf : ScatterDims.WF S25000 S8x1 S8 [] [0] [0] 1
  gather_S8_S25000x1_S25000_n_0_n_n_0_1_1_wf : GatherDims.WF S8 S25000x1 S25000 [] [0] [] [0] [] 1 ![1]
  gather_S8_S400000x1_S400000_n_0_n_n_0_1_1_wf : GatherDims.WF S8 S400000x1 S400000 [] [0] [] [0] [] 1 ![1]
  scatter_S8x128_S25000x1_S25000x128_1_0_0_1_wf : ScatterDims.WF S8x128 S25000x1 S25000x128 [1] [0] [0] 1
  scatter_S8x128_S400000x1_S400000x128_1_0_0_1_wf : ScatterDims.WF S8x128 S400000x1 S400000x128 [1] [0] [0] 1
  dot_S8x128_S128x128_S8x128_1_0_0_1_n_n_wf : DotDims.WF S8x128 S128x128 S8x128 [1] [0] [0] [1] [] []
  dot_S8x384_S384x128_S8x128_1_0_0_1_n_n_wf : DotDims.WF S8x384 S384x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x512.size a ≤ S400000x512.size a
  hwx0_0 : ∀ i : grid0.Coords, EltTy.bits .bf16 = 32 ∨ (Rect.block (s := S400000x512) S3200x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3200x128.size a ≤ S400000x128.size a
  hwx0_9 : ∀ i : grid0.Coords, EltTy.bits .f32 = 32 ∨ (Rect.block (s := S400000x128) S3200x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x128.size a ≤ S400000x128.size a
  hwx0_10 : ∀ i : grid0.Coords, EltTy.bits .f32 = 32 ∨ (Rect.block (s := S400000x128) S3200x128.size (cc0_transform_10 i) (hinb0_10 i)).WholeWords (EltTy.packing .f32)

variable [Facts₀]

def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S8_S1_S__n_0_0_0 : ScatterDims S8 S1 S_ where
  updateWindowDims := []
  insertedWindowDims := [0]
  scatterDimsToOperandDims := [0]
  indexVectorDim := 0
  wf := scatter_S8_S1_S__n_0_0_0_wf
def scatter_S400000_S8x1_S8_n_0_0_1 : ScatterDims S400000 S8x1 S8 where
  updateWindowDims := []
  insertedWindowDims := [0]
  scatterDimsToOperandDims := [0]
  indexVectorDim := 1
  wf := scatter_S400000_S8x1_S8_n_0_0_1_wf
def gather_S8x128_S400000x1_S400000x128_1_0_n_n_0_1_1128 : GatherDims S8x128 S400000x1 S400000x128 where
  offsetDims := [1]
  collapsedSliceDims := [0]
  operandBatchingDims := []
  startIndicesBatchingDims := []
  startIndexMap := [0]
  indexVectorDim := 1
  sliceSizes := ![1, 128]
  wf := gather_S8x128_S400000x1_S400000x128_1_0_n_n_0_1_1128_wf
def dot_S3200x512_S512x256_S3200x256_1_0_0_1_n_n : DotDims S3200x512 S512x256 S3200x256 where
  lhsContracting := [1]
  rhsContracting := [0]
  lhsNonContracting := [0]
  rhsNonContracting := [1]
  lhsBatch := []
  rhsBatch := []
  wf := dot_S3200x512_S512x256_S3200x256_1_0_0_1_n_n_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def scatter_S25000_S8x1_S8_n_0_0_1 : ScatterDims S25000 S8x1 S8 where
  updateWindowDims := []
  insertedWindowDims := [0]
  scatterDimsToOperandDims := [0]
  indexVectorDim := 1
  wf := scatter_S25000_S8x1_S8_n_0_0_1_wf
def gather_S8_S25000x1_S25000_n_0_n_n_0_1_1 : GatherDims S8 S25000x1 S25000 where
  offsetDims := []
  collapsedSliceDims := [0]
  operandBatchingDims := []
  startIndicesBatchingDims := []
  startIndexMap := [0]
  indexVectorDim := 1
  sliceSizes := ![1]
  wf := gather_S8_S25000x1_S25000_n_0_n_n_0_1_1_wf
def gather_S8_S400000x1_S400000_n_0_n_n_0_1_1 : GatherDims S8 S400000x1 S400000 where
  offsetDims := []
  collapsedSliceDims := [0]
  operandBatchingDims := []
  startIndicesBatchingDims := []
  startIndexMap := [0]
  indexVectorDim := 1
  sliceSizes := ![1]
  wf := gather_S8_S400000x1_S400000_n_0_n_n_0_1_1_wf
def scatter_S8x128_S25000x1_S25000x128_1_0_0_1 : ScatterDims S8x128 S25000x1 S25000x128 where
  updateWindowDims := [1]
  insertedWindowDims := [0]
  scatterDimsToOperandDims := [0]
  indexVectorDim := 1
  wf := scatter_S8x128_S25000x1_S25000x128_1_0_0_1_wf
def scatter_S8x128_S400000x1_S400000x128_1_0_0_1 : ScatterDims S8x128 S400000x1 S400000x128 where
  updateWindowDims := [1]
  insertedWindowDims := [0]
  scatterDimsToOperandDims := [0]
  indexVectorDim := 1
  wf := scatter_S8x128_S400000x1_S400000x128_1_0_0_1_wf
def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf
def dot_S8x384_S384x128_S8x128_1_0_0_1_n_n : DotDims S8x384 S384x128 S8x128 where
  lhsContracting := [1]
  rhsContracting := [0]
  lhsNonContracting := [0]
  rhsNonContracting := [1]
  lhsBatch := []
  rhsBatch := []
  wf := dot_S8x384_S384x128_S8x128_1_0_0_1_n_n_wf

abbrev win0_0 : Pipeline.Window sig grid0 :=
  Pipeline.Window.ofSpec (Memref.whole main_v20) S3200x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29_0) S3200x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v29_1) S3200x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S25000x128 : Shape := ⟨2, ![25000, 128]⟩
abbrev S400000x128 : Shape := ⟨2, ![400000, 128]⟩
abbrev S8x128 : Shape := ⟨2, ![8, 128]⟩
abbrev S400000 : Shape := ⟨1, ![400000]⟩
abbrev S8 : Shape := ⟨1, ![8]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S1 : Shape := ⟨1, ![1]⟩
abbrev S7 : Shape := ⟨1, ![7]⟩
abbrev S_ : Shape := ⟨0, ![]⟩
abbrev S8x1 : Shape := ⟨2, ![8, 1]⟩
abbrev S400000x1 : Shape := ⟨2, ![400000, 1]⟩
abbrev S1x1 : Shape := ⟨2, ![1, 1]⟩
abbrev S400000x512 : Shape := ⟨2, ![400000, 512]⟩
abbrev S400000x256 : Shape := ⟨2, ![400000, 256]⟩
abbrev S1x256 : Shape := ⟨2, ![1, 256]⟩
abbrev S1x128 : Shape := ⟨2, ![1, 128]⟩
abbrev S25000 : Shape := ⟨1, ![25000]⟩
abbrev S25000x1 : Shape := ⟨2, ![25000, 1]⟩
abbrev S8x384 : Shape := ⟨2, ![8, 384]⟩

abbrev nBuf : Space → Nat
  | .hbm => 299
  | .vmem => 0
  | .smem => 0
  | _ => 0

abbrev hbmTy0_0 (i : Nat) : BufTy := match i % 128 with
  | 0 => ⟨S25000x128, .f32⟩
  | 1 => ⟨S400000x128, .f32⟩
  | 2 => ⟨S8x128, .f32⟩
  | 3 => ⟨S400000, .i32⟩
  | 4 => ⟨S400000, .i32⟩
  | 5 => ⟨S8, .i32⟩
  | 6 => ⟨S8, .i32⟩
  | 7 => ⟨S512x256, .f32⟩
  | 8 => ⟨S256, .f32⟩
  | 9 => ⟨S256x128, .f32⟩
  | 10 => ⟨S128, .f32⟩
  | 11 => ⟨S512x256, .f32⟩
  | 12 => ⟨S256, .f32⟩
  | 13 => ⟨S256x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S384x128, .f32⟩
  | 22 => ⟨S128, .f32⟩
  | 23 => ⟨S1, .i32⟩
  | 24 => ⟨S7, .i32⟩
  | 25 => ⟨S8, .i32⟩
  | 26 => ⟨S_, .i32⟩
  | 27 => ⟨S1, .i32⟩
  | 28 => ⟨S_, .i32⟩
  | 29 => ⟨S8, .i32⟩
  | 30 => ⟨S_, .i32⟩
  | 31 => ⟨S_, .i32⟩
  | 32 => ⟨S8, .i32⟩
  | 33 => ⟨S_, .i32⟩
  | 34 => ⟨S400000, .i32⟩
  | 35 => ⟨S_, .i32⟩
  | 36 => ⟨S8, .i32⟩
  | 37 => ⟨S8, .i1⟩
  | 38 => ⟨S_, .i32⟩
  | 39 => ⟨S8, .i32⟩
  | 40 => ⟨S8, .i32⟩
  | 41 => ⟨S8, .i32⟩
  | 42 => ⟨S8x1, .i32⟩
  | 43 => ⟨S_, .i32⟩
  | 44 => ⟨S8, .i32⟩
  | 45 => ⟨S400000, .i32⟩
  | 46 => ⟨S_, .i32⟩
  | 47 => ⟨S_, .i32⟩
  | 48 => ⟨S400000, .i32⟩
  | 49 => ⟨S_, .i32⟩
  | 50 => ⟨S400000, .i32⟩
  | 51 => ⟨S400000, .i32⟩
  | 52 => ⟨S_, .i32⟩
  | 53 => ⟨S400000, .i32⟩
  | 54 => ⟨S400000, .i1⟩
  | 55 => ⟨S_, .i32⟩
  | 56 => ⟨S400000, .i32⟩
  | 57 => ⟨S400000, .i32⟩
  | 58 => ⟨S400000, .i32⟩
  | 59 => ⟨S400000x1, .i32⟩
  | 60 => ⟨S1, .i32⟩
  | 61 => ⟨S_, .i32⟩
  | 62 => ⟨S400000x1, .i32⟩
  | 63 => ⟨S400000x1, .i1⟩
  | 64 => ⟨S1x1, .i32⟩
  | 65 => ⟨S400000x1, .i32⟩
  | 66 => ⟨S400000x1, .i1⟩
  | 67 => ⟨S400000x1, .i1⟩
  | 68 => ⟨S_, .i1⟩
  | 69 => ⟨S400000, .i1⟩
  | 70 => ⟨S400000x128, .f32⟩
  | 71 => ⟨S400000x128, .i1⟩
  | 72 => ⟨S_, .f32⟩
  | 73 => ⟨S400000x128, .f32⟩
  | 74 => ⟨S400000x128, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x128, .f32⟩
  | 84 => ⟨S_, .i32⟩
  | 85 => ⟨S400000, .i32⟩
  | 86 => ⟨S400000, .i1⟩
  | 87 => ⟨S_, .i32⟩
  | 88 => ⟨S400000, .i32⟩
  | 89 => ⟨S400000, .i32⟩
  | 90 => ⟨S400000, .i32⟩
  | 91 => ⟨S400000x1, .i32⟩
  | 92 => ⟨S400000x128, .f32⟩
  | 93 => ⟨S400000x512, .f32⟩
  | 94 => ⟨S400000x256, .f32⟩
  | 95 => ⟨S1x256, .f32⟩
  | 96 => ⟨S400000x256, .f32⟩
  | 97 => ⟨S400000x256, .f32⟩
  | 98 => ⟨S_, .f32⟩
  | 99 => ⟨S400000x256, .f32⟩
  | 100 => ⟨S400000x256, .i1⟩
  | 101 => ⟨S_, .f32⟩
  | 102 => ⟨S400000x256, .f32⟩
  | 103 => ⟨S400000x256, .f32⟩
  | 104 => ⟨S400000x256, .f32⟩
  | 105 => ⟨S400000x128, .f32⟩
  | 106 => ⟨S1x128, .f32⟩
  | 107 => ⟨S400000x128, .f32⟩
  | 108 => ⟨S400000x128, .f32⟩
  | 109 => ⟨S_, .f32⟩
  | 110 => ⟨S400000x128, .f32⟩
  | 111 => ⟨S400000x128, .i1⟩
  | 112 => ⟨S_, .f32⟩
  | 113 => ⟨S400000x128, .f32⟩
  | 114 => ⟨S400000x128, .f32⟩
  | 115 => ⟨S400000x128, .f32⟩
  | 116 => ⟨S_, .f32⟩
  | 117 => ⟨S25000x128, .f32⟩
  | 118 => ⟨S400000x1, .i32⟩
  | 119 => ⟨S25000x128, .f32⟩
  | 120 => ⟨S400000x256, .f32⟩
  | 121 => ⟨S1x256, .f32⟩
  | 122 => ⟨S400000x256, .f32⟩
  | 123 => ⟨S400000x256, .f32⟩
  | 124 => ⟨S_, .f32⟩
  | 125 => ⟨S400000x256, .f32⟩
  | 126 => ⟨S400000x256, .i1⟩
  | 127 => ⟨S_, .f32⟩
  | _ => ⟨S25000x128, .f32⟩

abbrev hbmTy0_1 (i : Nat) : BufTy := match i % 128 with
  | 0 => ⟨S400000x256, .f32⟩
  | 1 => ⟨S400000x256, .f32⟩
  | 2 => ⟨S400000x256, .f32⟩
  | 3 => ⟨S400000x128, .f32⟩
  | 4 => ⟨S1x128, .f32⟩
  | 5 => ⟨S400000x128, .f32⟩
  | 6 => ⟨S400000x128, .f32⟩
  | 7 => ⟨S_, .f32⟩
  | 8 => ⟨S400000x128, .f32⟩
  | 9 => ⟨S400000x128, .i1⟩
  | 10 => ⟨S_, .f32⟩
  | 11 => ⟨S400000x128, .f32⟩
  | 12 => ⟨S400000x128, .f32⟩
  | 13 => ⟨S400000x128, .f32⟩
  | 14 => ⟨S8, .i32⟩
  | 15 => ⟨S1, .i32⟩
  | 16 => ⟨S7, .i32⟩
  | 17 => ⟨S8, .i32⟩
  | 18 => ⟨S_, .i32⟩
  | 19 => ⟨S1, .i32⟩
  | 20 => ⟨S_, .i32⟩
  | 21 => ⟨S8, .i32⟩
  | 22 => ⟨S_, .i32⟩
  | 23 => ⟨S_, .i32⟩
  | 24 => ⟨S8, .i32⟩
  | 25 => ⟨S_, .i32⟩
  | 26 => ⟨S25000, .i32⟩
  | 27 => ⟨S_, .i32⟩
  | 28 => ⟨S8, .i32⟩
  | 29 => ⟨S8, .i1⟩
  | 30 => ⟨S_, .i32⟩
  | 31 => ⟨S8, .i32⟩
  | 32 => ⟨S8, .i32⟩
  | 33 => ⟨S8, .i32⟩
  | 34 => ⟨S8x1, .i32⟩
  | 35 => ⟨S_, .i32⟩
  | 36 => ⟨S8, .i32⟩
  | 37 => ⟨S25000, .i32⟩
  | 38 => ⟨S_, .i32⟩
  | 39 => ⟨S_, .i32⟩
  | 40 => ⟨S25000, .i32⟩
  | 41 => ⟨S_, .i32⟩
  | 42 => ⟨S25000, .i32⟩
  | 43 => ⟨S25000, .i32⟩
  | 44 => ⟨S_, .i32⟩
  | 45 => ⟨S25000, .i32⟩
  | 46 => ⟨S25000, .i1⟩
  | 47 => ⟨S_, .i32⟩
  | 48 => ⟨S25000, .i32⟩
  | 49 => ⟨S25000, .i32⟩
  | 50 => ⟨S25000, .i32⟩
  | 51 => ⟨S25000x1, .i32⟩
  | 52 => ⟨S1, .i32⟩
  | 53 => ⟨S_, .i32⟩
  | 54 => ⟨S25000x1, .i32⟩
  | 55 => ⟨S25000x1, .i1⟩
  | 56 => ⟨S1x1, .i32⟩
  | 57 => ⟨S25000x1, .i32⟩
  | 58 => ⟨S25000x1, .i1⟩
  | 59 => ⟨S25000x1, .i1⟩
  | 60 => ⟨S_, .i1⟩
  | 61 => ⟨S25000, .i1⟩
  | 62 => ⟨S25000, .i32⟩
  | 63 => ⟨S_, .i32⟩
  | 64 => ⟨S25000, .i32⟩
  | 65 => ⟨S25000, .i32⟩
  | 66 => ⟨S8, .i32⟩
  | 67 => ⟨S1, .i32⟩
  | 68 => ⟨S7, .i32⟩
  | 69 => ⟨S8, .i32⟩
  | 70 => ⟨S_, .i32⟩
  | 71 => ⟨S1, .i32⟩
  | 72 => ⟨S_, .i32⟩
  | 73 => ⟨S8, .i32⟩
  | 74 => ⟨S_, .i32⟩
  | 75 => ⟨S_, .i32⟩
  | 76 => ⟨S8, .i32⟩
  | 77 => ⟨S_, .i32⟩
  | 78 => ⟨S400000, .i32⟩
  | 79 => ⟨S_, .i32⟩
  | 80 => ⟨S8, .i32⟩
  | 81 => ⟨S8, .i1⟩
  | 82 => ⟨S_, .i32⟩
  | 83 => ⟨S8, .i32⟩
  | 84 => ⟨S8, .i32⟩
  | 85 => ⟨S8, .i32⟩
  | 86 => ⟨S8x1, .i32⟩
  | 87 => ⟨S_, .i32⟩
  | 88 => ⟨S8, .i32⟩
  | 89 => ⟨S400000, .i32⟩
  | 90 => ⟨S_, .i32⟩
  | 91 => ⟨S_, .i32⟩
  | 92 => ⟨S400000, .i32⟩
  | 93 => ⟨S_, .i32⟩
  | 94 => ⟨S400000, .i32⟩
  | 95 => ⟨S400000, .i32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S1, .i32⟩
  | 105 => ⟨S_, .i32⟩
  | 106 => ⟨S400000x1, .i32⟩
  | 107 => ⟨S400000x1, .i1⟩
  | 108 => ⟨S1x1, .i32⟩
  | 109 => ⟨S400000x1, .i32⟩
  | 110 => ⟨S400000x1, .i1⟩
  | 111 => ⟨S400000x1, .i1⟩
  | 112 => ⟨S_, .i1⟩
  | 113 => ⟨S400000, .i1⟩
  | 114 => ⟨S400000, .i32⟩
  | 115 => ⟨S_, .i32⟩
  | 116 => ⟨S400000, .i32⟩
  | 117 => ⟨S400000, .i32⟩
  | 118 => ⟨S_, .f32⟩
  | 119 => ⟨S8x128, .f32⟩
  | 120 => ⟨S25000x1, .i32⟩
  | 121 => ⟨S8x128, .f32⟩
  | 122 => ⟨S_, .f32⟩
  | 123 => ⟨S8x128, .f32⟩
  | 124 => ⟨S400000x1, .i32⟩
  | 125 => ⟨S8x128, .f32⟩
  | 126 => ⟨S8x128, .f32⟩
  | 127 => ⟨S1x128, .f32⟩
  | _ => ⟨S25000x128, .f32⟩

abbrev hbmTy0_2 (i : Nat) : BufTy := match i % 128 with
  | 0 => ⟨S8x128, .f32⟩
  | 1 => ⟨S8x128, .f32⟩
  | 2 => ⟨S_, .f32⟩
  | 3 => ⟨S8x128, .f32⟩
  | 4 => ⟨S8x128, .i1⟩
  | 5 => ⟨S_, .f32⟩
  | 6 => ⟨S8x128, .f32⟩
  | 7 => ⟨S8x128, .f32⟩
  | 8 => ⟨S8x128, .f32⟩
  | 9 => ⟨S8x128, .f32⟩
  | 10 => ⟨S1x128, .f32⟩
  | 11 => ⟨S8x128, .f32⟩
  | 12 => ⟨S8x128, .f32⟩
  | 13 => ⟨S_, .f32⟩
  | 14 => ⟨S8x128, .f32⟩
  | 15 => ⟨S8x128, .i1⟩
  | 16 => ⟨S_, .f32⟩
  | 17 => ⟨S8x128, .f32⟩
  | 18 => ⟨S8x128, .f32⟩
  | 19 => ⟨S8x128, .f32⟩
  | 20 => ⟨S8x128, .f32⟩
  | 21 => ⟨S1x128, .f32⟩
  | 22 => ⟨S8x128, .f32⟩
  | 23 => ⟨S8x128, .f32⟩
  | 24 => ⟨S_, .f32⟩
  | 25 => ⟨S8x128, .f32⟩
  | 26 => ⟨S8x128, .i1⟩
  | 27 => ⟨S_, .f32⟩
  | 28 => ⟨S8x128, .f32⟩
  | 29 => ⟨S8x128, .f32⟩
  | 30 => ⟨S8x128, .f32⟩
  | 31 => ⟨S8x384, .f32⟩
  | 32 => ⟨S8x128, .f32⟩
  | 33 => ⟨S1x128, .f32⟩
  | 34 => ⟨S8x128, .f32⟩
  | 35 => ⟨S8x128, .f32⟩
  | 36 => ⟨S_, .f32⟩
  | 37 => ⟨S8x128, .f32⟩
  | 38 => ⟨S8x128, .i1⟩
  | 39 => ⟨S_, .f32⟩
  | 40 => ⟨S8x128, .f32⟩
  | 41 => ⟨S8x128, .f32⟩
  | 42 => ⟨S8x128, .f32⟩
  | _ => ⟨S25000x128, .f32⟩

abbrev hbmTy (i : Nat) : BufTy := match i / 128 with
  | 0 => hbmTy0_0 i
  | 1 => hbmTy0_1 i
  | 2 => hbmTy0_2 i
  | _ => ⟨S25000x128, .f32⟩

abbrev bufTy : (tb : Table) → Fin (tcTables nBuf tb) → BufTy
  | .hbm, ⟨i, _⟩ => hbmTy i
  | _, _ => ⟨S25000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_v0 : Ref sig .tc := ⟨.hbm, 23, rfl⟩
abbrev main_call0_v1 : Ref sig .tc := ⟨.hbm, 24, rfl⟩
abbrev main_v0 : Ref sig .tc := ⟨.hbm, 25, rfl⟩
abbrev main_c : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_call1_call0_c : Ref sig .tc := ⟨.hbm, 30, rfl⟩
abbrev main_call1_call0_v0 : Ref sig .tc := ⟨.hbm, 31, rfl⟩
abbrev main_v3 : Ref sig .tc := ⟨.hbm, 32, rfl⟩
abbrev main_c_1 : Ref sig .tc := ⟨.hbm, 33, rfl⟩
abbrev main_v4 : Ref sig .tc := ⟨.hbm, 34, rfl⟩
abbrev main_c_2 : Ref sig .tc := ⟨.hbm, 35, rfl⟩
abbrev main_v5 : Ref sig .tc := ⟨.hbm, 36, rfl⟩
abbrev main_v6 : Ref sig .tc := ⟨.hbm, 37, rfl⟩
abbrev main_c_3 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_c_4 : Ref sig .tc := ⟨.hbm, 43, rfl⟩
abbrev main_v11 : Ref sig .tc := ⟨.hbm, 44, rfl⟩
abbrev main_v12 : Ref sig .tc := ⟨.hbm, 45, rfl⟩
abbrev main_call2_call0_c : Ref sig .tc := ⟨.hbm, 46, rfl⟩
abbrev main_call2_call0_v0 : Ref sig .tc := ⟨.hbm, 47, rfl⟩
abbrev main_v13 : Ref sig .tc := ⟨.hbm, 48, rfl⟩
abbrev main_c_5 : Ref sig .tc := ⟨.hbm, 49, rfl⟩
abbrev main_v14 : Ref sig .tc := ⟨.hbm, 50, rfl⟩
abbrev main_v15 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_v14 : Ref sig .tc := ⟨.hbm, 71, rfl⟩
abbrev main_call3_cst : Ref sig .tc := ⟨.hbm, 72, rfl⟩
abbrev main_call3_v15 : Ref sig .tc := ⟨.hbm, 73, rfl⟩
abbrev main_v16 : Ref sig .tc := ⟨.hbm, 74, rfl⟩
abbrev main_c_6 : Ref sig .tc := ⟨.hbm, 75, rfl⟩
abbrev main_v17 : Ref sig .tc := ⟨.hbm, 76, rfl⟩
abbrev main_v18 : Ref sig .tc := ⟨.hbm, 77, rfl⟩
abbrev main_c_7 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_c_8 : Ref sig .tc := ⟨.hbm, 84, rfl⟩
abbrev main_v24 : Ref sig .tc := ⟨.hbm, 85, rfl⟩
abbrev main_v25 : Ref sig .tc := ⟨.hbm, 86, rfl⟩
abbrev main_c_9 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_call4_cst : Ref sig .tc := ⟨.hbm, 98, rfl⟩
abbrev main_call4_v0 : Ref sig .tc := ⟨.hbm, 99, rfl⟩
abbrev main_call4_v1 : Ref sig .tc := ⟨.hbm, 100, rfl⟩
abbrev main_call4_cst_0 : Ref sig .tc := ⟨.hbm, 101, rfl⟩
abbrev main_call4_v2 : Ref sig .tc := ⟨.hbm, 102, rfl⟩
abbrev main_call4_v3 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_call5_cst : Ref sig .tc := ⟨.hbm, 109, rfl⟩
abbrev main_call5_v0 : Ref sig .tc := ⟨.hbm, 110, rfl⟩
abbrev main_call5_v1 : Ref sig .tc := ⟨.hbm, 111, rfl⟩
abbrev main_call5_cst_0 : Ref sig .tc := ⟨.hbm, 112, rfl⟩
abbrev main_call5_v2 : Ref sig .tc := ⟨.hbm, 113, rfl⟩
abbrev main_call5_v3 : Ref sig .tc := ⟨.hbm, 114, rfl⟩
abbrev main_v41 : Ref sig .tc := ⟨.hbm, 115, rfl⟩
abbrev main_cst : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_call6_cst : Ref sig .tc := ⟨.hbm, 124, rfl⟩
abbrev main_call6_v0 : Ref sig .tc := ⟨.hbm, 125, rfl⟩
abbrev main_call6_v1 : Ref sig .tc := ⟨.hbm, 126, rfl⟩
abbrev main_call6_cst_0 : Ref sig .tc := ⟨.hbm, 127, rfl⟩
abbrev main_call6_v2 : Ref sig .tc := ⟨.hbm, 128, rfl⟩
abbrev main_call6_v3 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_call7_cst : Ref sig .tc := ⟨.hbm, 135, rfl⟩
abbrev main_call7_v0 : Ref sig .tc := ⟨.hbm, 136, rfl⟩
abbrev main_call7_v1 : Ref sig .tc := ⟨.hbm, 137, rfl⟩
abbrev main_call7_cst_0 : Ref sig .tc := ⟨.hbm, 138, rfl⟩
abbrev main_call7_v2 : Ref sig .tc := ⟨.hbm, 139, rfl⟩
abbrev main_call7_v3 : Ref sig .tc := ⟨.hbm, 140, rfl⟩
abbrev main_v54 : Ref sig .tc := ⟨.hbm, 141, rfl⟩
abbrev main_v55 : Ref sig .tc := ⟨.hbm, 142, rfl⟩
abbrev main_call8_v0 : Ref sig .tc := ⟨.hbm, 143, rfl⟩
abbrev main_call8_v1 : Ref sig .tc := ⟨.hbm, 144, rfl⟩
abbrev main_v56 : Ref sig .tc := ⟨.hbm, 145, rfl⟩
abbrev main_c_10 : Ref sig .tc := ⟨.hbm, 146, rfl⟩
abbrev main_v57 : Ref sig .tc := ⟨.hbm, 147, rfl⟩
abbrev main_c_11 : Ref sig .tc := ⟨.hbm, 148, rfl⟩
abbrev main_v58 : Ref sig .tc := ⟨.hbm, 149, rfl⟩
abbrev main_call9_call0_c : Ref sig .tc := ⟨.hbm, 150, rfl⟩
abbrev main_call9_call0_v0 : Ref sig .tc := ⟨.hbm, 151, rfl⟩
abbrev main_v59 : Ref sig .tc := ⟨.hbm, 152, rfl⟩
abbrev main_c_12 : Ref sig .tc := ⟨.hbm, 153, rfl⟩
abbrev main_v60 : Ref sig .tc := ⟨.hbm, 154, rfl⟩
abbrev main_c_13 : Ref sig .tc := ⟨.hbm, 155, rfl⟩
abbrev main_v61 : Ref sig .tc := ⟨.hbm, 156, rfl⟩
abbrev main_v62 : Ref sig .tc := ⟨.hbm, 157, rfl⟩
abbrev main_c_14 : Ref sig .tc := ⟨.hbm, 158, rfl⟩
abbrev main_v63 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_c_15 : Ref sig .tc := ⟨.hbm, 163, rfl⟩
abbrev main_v67 : Ref sig .tc := ⟨.hbm, 164, rfl⟩
abbrev main_v68 : Ref sig .tc := ⟨.hbm, 165, rfl⟩
abbrev main_call10_call0_c : Ref sig .tc := ⟨.hbm, 166, rfl⟩
abbrev main_call10_call0_v0 : Ref sig .tc := ⟨.hbm, 167, rfl⟩
abbrev main_v69 : Ref sig .tc := ⟨.hbm, 168, rfl⟩
abbrev main_c_16 : Ref sig .tc := ⟨.hbm, 169, rfl⟩
abbrev main_v70 : Ref sig .tc := ⟨.hbm, 170, rfl⟩
abbrev main_v71 : Ref sig .tc := ⟨.hbm, 171, rfl⟩
abbrev main_call11_c : Ref sig .tc := ⟨.hbm, 172, rfl⟩
abbrev main_call11_v0 : Ref sig .tc := ⟨.hbm, 173, rfl⟩
abbrev main_call11_v1 : Ref sig .tc := ⟨.hbm, 174, rfl⟩
abbrev main_call11_c_0 : Ref sig .tc := ⟨.hbm, 175, rfl⟩
abbrev main_call11_v2 : Ref sig .tc := ⟨.hbm, 176, rfl⟩
abbrev main_call11_v3 : Ref sig .tc := ⟨.hbm, 177, rfl⟩
abbrev main_call11_v4 : Ref sig .tc := ⟨.hbm, 178, rfl⟩
abbrev main_call11_v5 : Ref sig .tc := ⟨.hbm, 179, rfl⟩
abbrev main_call11_c_1 : Ref sig .tc := ⟨.hbm, 180, rfl⟩
abbrev main_call11_c_2 : Ref sig .tc := ⟨.hbm, 181, rfl⟩
abbrev main_call11_v6 : Ref sig .tc := ⟨.hbm, 182, rfl⟩
abbrev main_call11_v7 : Ref sig .tc := ⟨.hbm, 183, rfl⟩
abbrev main_call11_v8 : Ref sig .tc := ⟨.hbm, 184, rfl⟩
abbrev main_call11_v9 : Ref sig .tc := ⟨.hbm, 185, rfl⟩
abbrev main_call11_v10 : Ref sig .tc := ⟨.hbm, 186, rfl⟩
abbrev main_call11_v11 : Ref sig .tc := ⟨.hbm, 187, rfl⟩
abbrev main_call11_c_3 : Ref sig .tc := ⟨.hbm, 188, rfl⟩
abbrev main_call11_v12 : Ref sig .tc := ⟨.hbm, 189, rfl⟩
abbrev main_call11_v13 : Ref sig .tc := ⟨.hbm, 190, rfl⟩
abbrev main_call11_c_4 : Ref sig .tc := ⟨.hbm, 191, rfl⟩
abbrev main_call11_v14 : Ref sig .tc := ⟨.hbm, 192, rfl⟩
abbrev main_v72 : Ref sig .tc := ⟨.hbm, 193, rfl⟩
abbrev main_v73 : Ref sig .tc := ⟨.hbm, 194, rfl⟩
abbrev main_call12_v0 : Ref sig .tc := ⟨.hbm, 195, rfl⟩
abbrev main_call12_v1 : Ref sig .tc := ⟨.hbm, 196, rfl⟩
abbrev main_v74 : Ref sig .tc := ⟨.hbm, 197, rfl⟩
abbrev main_c_17 : Ref sig .tc := ⟨.hbm, 198, rfl⟩
abbrev main_v75 : Ref sig .tc := ⟨.hbm, 199, rfl⟩
abbrev main_c_18 : Ref sig .tc := ⟨.hbm, 200, rfl⟩
abbrev main_v76 : Ref sig .tc := ⟨.hbm, 201, rfl⟩
abbrev main_call13_call0_c : Ref sig .tc := ⟨.hbm, 202, rfl⟩
abbrev main_call13_call0_v0 : Ref sig .tc := ⟨.hbm, 203, rfl⟩
abbrev main_v77 : Ref sig .tc := ⟨.hbm, 204, rfl⟩
abbrev main_c_19 : Ref sig .tc := ⟨.hbm, 205, rfl⟩
abbrev main_v78 : Ref sig .tc := ⟨.hbm, 206, rfl⟩
abbrev main_c_20 : Ref sig .tc := ⟨.hbm, 207, rfl⟩
abbrev main_v79 : Ref sig .tc := ⟨.hbm, 208, rfl⟩
abbrev main_v80 : Ref sig .tc := ⟨.hbm, 209, rfl⟩
abbrev main_c_21 : Ref sig .tc := ⟨.hbm, 210, rfl⟩
abbrev main_v81 : Ref sig .tc := ⟨.hbm, 211, rfl⟩
abbrev main_v82 : Ref sig .tc := ⟨.hbm, 212, rfl⟩
abbrev main_v83 : Ref sig .tc := ⟨.hbm, 213, rfl⟩
abbrev main_v84 : Ref sig .tc := ⟨.hbm, 214, rfl⟩
abbrev main_c_22 : Ref sig .tc := ⟨.hbm, 215, rfl⟩
abbrev main_v85 : Ref sig .tc := ⟨.hbm, 216, rfl⟩
abbrev main_v86 : Ref sig .tc := ⟨.hbm, 217, rfl⟩
abbrev main_call14_call0_c : Ref sig .tc := ⟨.hbm, 218, rfl⟩
abbrev main_call14_call0_v0 : Ref sig .tc := ⟨.hbm, 219, rfl⟩
abbrev main_v87 : Ref sig .tc := ⟨.hbm, 220, rfl⟩
abbrev main_c_23 : Ref sig .tc := ⟨.hbm, 221, rfl⟩
abbrev main_v88 : Ref sig .tc := ⟨.hbm, 222, rfl⟩
abbrev main_v89 : Ref sig .tc := ⟨.hbm, 223, rfl⟩
abbrev main_call15_c : Ref sig .tc := ⟨.hbm, 224, rfl⟩
abbrev main_call15_v0 : Ref sig .tc := ⟨.hbm, 225, rfl⟩
abbrev main_call15_v1 : Ref sig .tc := ⟨.hbm, 226, rfl⟩
abbrev main_call15_c_0 : Ref sig .tc := ⟨.hbm, 227, rfl⟩
abbrev main_call15_v2 : Ref sig .tc := ⟨.hbm, 228, rfl⟩
abbrev main_call15_v3 : Ref sig .tc := ⟨.hbm, 229, rfl⟩
abbrev main_call15_v4 : Ref sig .tc := ⟨.hbm, 230, rfl⟩
abbrev main_call15_v5 : Ref sig .tc := ⟨.hbm, 231, rfl⟩
abbrev main_call15_c_1 : Ref sig .tc := ⟨.hbm, 232, rfl⟩
abbrev main_call15_c_2 : Ref sig .tc := ⟨.hbm, 233, rfl⟩
abbrev main_call15_v6 : Ref sig .tc := ⟨.hbm, 234, rfl⟩
abbrev main_call15_v7 : Ref sig .tc := ⟨.hbm, 235, rfl⟩
abbrev main_call15_v8 : Ref sig .tc := ⟨.hbm, 236, rfl⟩
abbrev main_call15_v9 : Ref sig .tc := ⟨.hbm, 237, rfl⟩
abbrev main_call15_v10 : Ref sig .tc := ⟨.hbm, 238, rfl⟩
abbrev main_call15_v11 : Ref sig .tc := ⟨.hbm, 239, rfl⟩
abbrev main_call15_c_3 : Ref sig .tc := ⟨.hbm, 240, rfl⟩
abbrev main_call15_v12 : Ref sig .tc := ⟨.hbm, 241, rfl⟩
abbrev main_call15_v13 : Ref sig .tc := ⟨.hbm, 242, rfl⟩
abbrev main_call15_c_4 : Ref sig .tc := ⟨.hbm, 243, rfl⟩
abbrev main_call15_v14 : Ref sig .tc := ⟨.hbm, 244, rfl⟩
abbrev main_v90 : Ref sig .tc := ⟨.hbm, 245, rfl⟩
abbrev main_cst_24 : Ref sig .tc := ⟨.hbm, 246, rfl⟩
abbrev main_v91 : Ref sig .tc := ⟨.hbm, 247, rfl⟩
abbrev main_v92 : Ref sig .tc := ⟨.hbm, 248, rfl⟩
abbrev main_v93 : Ref sig .tc := ⟨.hbm, 249, rfl⟩
abbrev main_cst_25 : Ref sig .tc := ⟨.hbm, 250, rfl⟩
abbrev main_v94 : Ref sig .tc := ⟨.hbm, 251, rfl⟩
abbrev main_v95 : Ref sig .tc := ⟨.hbm, 252, rfl⟩
abbrev main_v96 : Ref sig .tc := ⟨.hbm, 253, rfl⟩
abbrev main_v97 : Ref sig .tc := ⟨.hbm, 254, rfl⟩
abbrev main_v98 : Ref sig .tc := ⟨.hbm, 255, rfl⟩
abbrev main_v99 : Ref sig .tc := ⟨.hbm, 256, rfl⟩
abbrev main_v100 : Ref sig .tc := ⟨.hbm, 257, rfl⟩
abbrev main_call16_cst : Ref sig .tc := ⟨.hbm, 258, rfl⟩
abbrev main_call16_v0 : Ref sig .tc := ⟨.hbm, 259, rfl⟩
abbrev main_call16_v1 : Ref sig .tc := ⟨.hbm, 260, rfl⟩
abbrev main_call16_cst_0 : Ref sig .tc := ⟨.hbm, 261, rfl⟩
abbrev main_call16_v2 : Ref sig .tc := ⟨.hbm, 262, rfl⟩
abbrev main_call16_v3 : Ref sig .tc := ⟨.hbm, 263, rfl⟩
abbrev main_v101 : Ref sig .tc := ⟨.hbm, 264, rfl⟩
abbrev main_v102 : Ref sig .tc := ⟨.hbm, 265, rfl⟩
abbrev main_v103 : Ref sig .tc := ⟨.hbm, 266, rfl⟩
abbrev main_v104 : Ref sig .tc := ⟨.hbm, 267, rfl⟩
abbrev main_v105 : Ref sig .tc := ⟨.hbm, 268, rfl⟩
abbrev main_call17_cst : Ref sig .tc := ⟨.hbm, 269, rfl⟩
abbrev main_call17_v0 : Ref sig .tc := ⟨.hbm, 270, rfl⟩
abbrev main_call17_v1 : Ref sig .tc := ⟨.hbm, 271, rfl⟩
abbrev main_call17_cst_0 : Ref sig .tc := ⟨.hbm, 272, rfl⟩
abbrev main_call17_v2 : Ref sig .tc := ⟨.hbm, 273, rfl⟩
abbrev main_call17_v3 : Ref sig .tc := ⟨.hbm, 274, rfl⟩
abbrev main_v106 : Ref sig .tc := ⟨.hbm, 275, rfl⟩
abbrev main_v107 : Ref sig .tc := ⟨.hbm, 276, rfl⟩
abbrev main_v108 : Ref sig .tc := ⟨.hbm, 277, rfl⟩
abbrev main_v109 : Ref sig .tc := ⟨.hbm, 278, rfl⟩
abbrev main_v110 : Ref sig .tc := ⟨.hbm, 279, rfl⟩
abbrev main_call18_cst : Ref sig .tc := ⟨.hbm, 280, rfl⟩
abbrev main_call18_v0 : Ref sig .tc := ⟨.hbm, 281, rfl⟩
abbrev main_call18_v1 : Ref sig .tc := ⟨.hbm, 282, rfl⟩
abbrev main_call18_cst_0 : Ref sig .tc := ⟨.hbm, 283, rfl⟩
abbrev main_call18_v2 : Ref sig .tc := ⟨.hbm, 284, rfl⟩
abbrev main_call18_v3 : Ref sig .tc := ⟨.hbm, 285, rfl⟩
abbrev main_v111 : Ref sig .tc := ⟨.hbm, 286, rfl⟩
abbrev main_v112 : Ref sig .tc := ⟨.hbm, 287, rfl⟩
abbrev main_v113 : Ref sig .tc := ⟨.hbm, 288, rfl⟩
abbrev main_v114 : Ref sig .tc := ⟨.hbm, 289, rfl⟩
abbrev main_v115 : Ref sig .tc := ⟨.hbm, 290, rfl⟩
abbrev main_v116 : Ref sig .tc := ⟨.hbm, 291, rfl⟩
abbrev main_call19_cst : Ref sig .tc := ⟨.hbm, 292, rfl⟩
abbrev main_call19_v0 : Ref sig .tc := ⟨.hbm, 293, rfl⟩
abbrev main_call19_v1 : Ref sig .tc := ⟨.hbm, 294, rfl⟩
abbrev main_call19_cst_0 : Ref sig .tc := ⟨.hbm, 295, rfl⟩
abbrev main_call19_v2 : Ref sig .tc := ⟨.hbm, 296, rfl⟩
abbrev main_call19_v3 : Ref sig .tc := ⟨.hbm, 297, rfl⟩
abbrev main_v117 : Ref sig .tc := ⟨.hbm, 298, rfl⟩

abbrev nD : Nat := 1
abbrev τ : Topo := Topo.v7x

variable {F : FTy → Type} [FloatOps F]

class Facts₀ : Prop where
  slices_S8_S1_7 : S8.Slices ![7] S1
  slices_S8_S7_0 : S8.Slices ![0] S7
  concatenates_S1_S7_S8_d0 : Shape.Concatenates [S1, S7] S8 0
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S400000 : S_.BroadcastsInDim S400000 (![] : Fin 0 → Fin S400000.rank)
  bcast_S_S8 : S_.BroadcastsInDim S8 (![] : Fin 0 → Fin S8.rank)
  bcast_S8_S8x1_0 : S8.BroadcastsInDim S8x1 (![0] : Fin 1 → Fin S8x1.rank)
  reduceWindows_S400000_S400000_w400000s1p399999_0 : S400000.ReduceWindows (![400000] : Fin 1 → Nat) ![1] ![399999] ![0] S400000
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x128_0 : S400000.BroadcastsInDim S400000x128 (![0] : Fin 1 → Fin S400000x128.rank)
  bcast_S_S400000x128 : S_.BroadcastsInDim S400000x128 (![] : Fin 0 → Fin S400000x128.rank)
  concatenates_S400000x128_S400000x128_S400000x128_S400000x128_S400000x512_d1 : Shape.Concatenates [S400000x128, S400000x128, S400000x128, S400000x128] S400000x512 1
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S25000x128 : S_.BroadcastsInDim S25000x128 (![] : Fin 0 → Fin S25000x128.rank)
  bcast_S_S25000 : S_.BroadcastsInDim S25000 (![] : Fin 0 → Fin S25000.rank)
  reduceWindows_S25000_S25000_w25000s1p24999_0 : S25000.ReduceWindows (![25000] : Fin 1 → Nat) ![1] ![24999] ![0] S25000
  bcast_S25000_S25000x1_0 : S25000.BroadcastsInDim S25000x1 (![0] : Fin 1 → Fin S25000x1.rank)
  bcast_S_S25000x1 : S_.BroadcastsInDim S25000x1 (![] : Fin 0 → Fin S25000x1.rank)
  bcast_S1x1_S25000x1_0_1 : S1x1.BroadcastsInDim S25000x1 (![0, 1] : Fin 2 → Fin S25000x1.rank)
  reducesTo_S25000x1_S25000_d1 : S25000x1.ReducesTo [1] S25000
  bcast_S_S8x128 : S_.BroadcastsInDim S8x128 (![] : Fin 0 → Fin S8x128.rank)
  bcast_S1x128_S8x128_0_1 : S1x128.BroadcastsInDim S8x128 (![0, 1] : Fin 2 → Fin S8x128.rank)
  concatenates_S8x128_S8x128_S8x128_S8x384_d1 : Shape.Concatenates [S8x128, S8x128, S8x128] S8x384 1
  scatter_S8_S1_S__n_0_0_0_wf : ScatterDims.WF S8 S1 S_ [] [0] [0] 0
  scatter_S400000_S8x1_S8_n_0_0_1_wf : ScatterDims.WF S400000 S8x1 S8 [] [0] [0] 1
  gather_S8x128_S400000x1_S400000x128_1_0_n_n_0_1_1128_wf : GatherDims.WF S8x128 S400000x1 S400000x128 [1] [0] [] [0] [] 1 ![1, 128]
  gather_S25000x128_S400000x1_S400000x128_1_0_n_n_0_1_1128_wf : GatherDims.WF S25000x128 S400000x1 S400000x128 [1] [0] [] [0] [] 1 ![1, 128]
  dot_S400000x512_S512x256_S400000x256_1_0_0_1_n_n_wf : DotDims.WF S400000x512 S512x256 S400000x256 [1] [0] [0] [1] [] []
  dot_S400000x256_S256x128_S400000x128_1_0_0_1_n_n_wf : DotDims.WF S400000x256 S256x128 S400000x128 [1] [0] [0] [1] [] []
  scatter_S25000x128_S400000x1_S400000x128_1_0_0_1_wf : ScatterDims.WF S25000x128 S400000x1 S400000x128 [1] [0] [0] 1
  scatter_S25000_S8x1_S8_n_0_0_1_wf : ScatterDims.WF S25000 S8x1 S8 [] [0] [0] 1
  gather_S8_S25000x1_S25000_n_0_n_n_0_1_1_wf : GatherDims.WF S8 S25000x1 S25000 [] [0] [] [0] [] 1 ![1]
  gather_S8_S400000x1_S400000_n_0_n_n_0_1_1_wf : GatherDims.WF S8 S400000x1 S400000 [] [0] [] [0] [] 1 ![1]
  scatter_S8x128_S25000x1_S25000x128_1_0_0_1_wf : ScatterDims.WF S8x128 S25000x1 S25000x128 [1] [0] [0] 1
  scatter_S8x128_S400000x1_S400000x128_1_0_0_1_wf : ScatterDims.WF S8x128 S400000x1 S400000x128 [1] [0] [0] 1
  dot_S8x128_S128x128_S8x128_1_0_0_1_n_n_wf : DotDims.WF S8x128 S128x128 S8x128 [1] [0] [0] [1] [] []
  dot_S8x384_S384x128_S8x128_1_0_0_1_n_n_wf : DotDims.WF S8x384 S384x128 S8x128 [1] [0] [0] [1] [] []

variable [Facts₀]

def scatter_S8_S1_S__n_0_0_0 : ScatterDims S8 S1 S_ where
  updateWindowDims := []
  insertedWindowDims := [0]
  scatterDimsToOperandDims := [0]
  indexVectorDim := 0
  wf := scatter_S8_S1_S__n_0_0_0_wf
def scatter_S400000_S8x1_S8_n_0_0_1 : ScatterDims S400000 S8x1 S8 where
  updateWindowDims := []
  insertedWindowDims := [0]
  scatterDimsToOperandDims := [0]
  indexVectorDim := 1
  wf := scatter_S400000_S8x1_S8_n_0_0_1_wf
def gather_S8x128_S400000x1_S400000x128_1_0_n_n_0_1_1128 : GatherDims S8x128 S400000x1 S400000x128 where
  offsetDims := [1]
  collapsedSliceDims := [0]
  operandBatchingDims := []
  startIndicesBatchingDims := []
  startIndexMap := [0]
  indexVectorDim := 1
  sliceSizes := ![1, 128]
  wf := gather_S8x128_S400000x1_S400000x128_1_0_n_n_0_1_1128_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def dot_S400000x512_S512x256_S400000x256_1_0_0_1_n_n : DotDims S400000x512 S512x256 S400000x256 where
  lhsContracting := [1]
  rhsContracting := [0]
  lhsNonContracting := [0]
  rhsNonContracting := [1]
  lhsBatch := []
  rhsBatch := []
  wf := dot_S400000x512_S512x256_S400000x256_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def scatter_S25000_S8x1_S8_n_0_0_1 : ScatterDims S25000 S8x1 S8 where
  updateWindowDims := []
  insertedWindowDims := [0]
  scatterDimsToOperandDims := [0]
  indexVectorDim := 1
  wf := scatter_S25000_S8x1_S8_n_0_0_1_wf
def gather_S8_S25000x1_S25000_n_0_n_n_0_1_1 : GatherDims S8 S25000x1 S25000 where
  offsetDims := []
  collapsedSliceDims := [0]
  operandBatchingDims := []
  startIndicesBatchingDims := []
  startIndexMap := [0]
  indexVectorDim := 1
  sliceSizes := ![1]
  wf := gather_S8_S25000x1_S25000_n_0_n_n_0_1_1_wf
def gather_S8_S400000x1_S400000_n_0_n_n_0_1_1 : GatherDims S8 S400000x1 S400000 where
  offsetDims := []
  collapsedSliceDims := [0]
  operandBatchingDims := []
  startIndicesBatchingDims := []
  startIndexMap := [0]
  indexVectorDim := 1
  sliceSizes := ![1]
  wf := gather_S8_S400000x1_S400000_n_0_n_n_0_1_1_wf
def scatter_S8x128_S25000x1_S25000x128_1_0_0_1 : ScatterDims S8x128 S25000x1 S25000x128 where
  updateWindowDims := [1]
  insertedWindowDims := [0]
  scatterDimsToOperandDims := [0]
  indexVectorDim := 1
  wf := scatter_S8x128_S25000x1_S25000x128_1_0_0_1_wf
def scatter_S8x128_S400000x1_S400000x128_1_0_0_1 : ScatterDims S8x128 S400000x1 S400000x128 where
  updateWindowDims := [1]
  insertedWindowDims := [0]
  scatterDimsToOperandDims := [0]
  indexVectorDim := 1
  wf := scatter_S8x128_S400000x1_S400000x128_1_0_0_1_wf
def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf
def dot_S8x384_S384x128_S8x128_1_0_0_1_n_n : DotDims S8x384 S384x128 S8x128 where
  lhsContracting := [1]
  rhsContracting := [0]
  lhsNonContracting := [0]
  rhsNonContracting := [1]
  lhsBatch := []
  rhsBatch := []
  wf := dot_S8x384_S384x128_S8x128_1_0_0_1_n_n_wf

class Facts : Prop extends Facts₀ where

variable [Facts]
-- ==== Proof.KDefs.lean ====
import proofs.«414085_j14620068675791_1_alg».proof.Proof.Gen.Kernel.Launch
import proofs.«414085_j14620068675791_1_alg».proof.Proof.Gen.Kernel.Skeleton
import proofs.«414085_j14620068675791_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev preOpss : List (List (HloOp τ sig (Elt F))) := [hostOps0, hostOps0_1, hostOps0_2, hostOps0_3, hostOps0_4, hostOps0_5, hostOps0_6, hostOps0_7, hostOps0_8, hostOps0_9]

abbrev postOpss : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23]

/-- Core `c`'s buffers when the region is entered: the launch contents after the host lines before it. -/
abbrev V0 (c : Dev nD) : Valuation τ sig (Elt F) := StableHlo.after (List.flatten preOpss) (fun b => m (c, b))

abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev rX : Rect S3200x512 := Rect.unit (s := S3200x512) ![0, 0] S3200x512.size inb_S3200x512_S3200x512_0_0
abbrev rW0 : Rect S512x256 := Rect.unit (s := S512x256) ![0, 0] S512x256.size inb_S512x256_S512x256_0_0
abbrev rB0 : Rect S1x256 := Rect.unit (s := S1x256) ![0, 0] S1x256.size inb_S1x256_S1x256_0_0
abbrev rW1 : Rect S256x128 := Rect.unit (s := S256x128) ![0, 0] S256x128.size inb_S256x128_S256x128_0_0
abbrev rB1 : Rect S1x128 := Rect.unit (s := S1x128) ![0, 0] S1x128.size inb_S1x128_S1x128_0_0
abbrev rO : Rect S3200x128 := Rect.unit (s := S3200x128) ![0, 0] S3200x128.size inb_S3200x128_S3200x128_0_0

/-- The node perceptron of a row block. -/
def out0_9 (x0 : Vec F S3200x512 .bf16) (x1 : Vec F S512x256 .bf16) (x2 : Vec F S1x256 .f32) (x3 : Vec F S256x128 .bf16) (x4 : Vec F S1x128 .f32) : Vec F S3200x128 .f32 :=
  View.canon [⟨rO, k0_pay3 (View.ld x0 rX) (View.ld x1 rW0) (View.ld x2 rB0) (View.ld x3 rW1) (View.ld x4 rB1)⟩]

/-- The edge perceptron of the same row block. -/
def out0_10 (x0 : Vec F S3200x512 .bf16) (x5 : Vec F S512x256 .bf16) (x6 : Vec F S1x256 .f32) (x7 : Vec F S256x128 .bf16) (x8 : Vec F S1x128 .f32) : Vec F S3200x128 .f32 :=
  View.canon [⟨rO, k0_pay1 (k0_pay4 (View.ld x0 rX) (View.ld x5 rW0) (View.ld x6 rB0)) (View.ld x7 rW1) (View.ld x8 rB1)⟩]

/-- After the body at point `t` each input window is at its block and the two outputs at the perceptrons of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t)
    | ⟨10, _⟩ => out0_10 (iblk m c 0 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]
theorem after0_10 (c : Dev nD) (t : Fin cfg0.N) : (dats m 0 c).after 10 t = out0_10 (iblk m c 0 t) (iblk m c 5 t) (iblk m c 6 t) (iblk m c 7 t) (iblk m c 8 t) := by dsimp only [dats]

end Cert.Kernel.Hand

end
-- ==== Proof.KKit.lean ====
/-
  The program around the region.  Every host line allocates nothing and writes exactly one buffer, its own
  result, numbered after the twenty-three arguments; a line after the region writes no array of the region.
  Hence an argument holds at the end what it held at the launch.
-/
import proofs.«414085_j14620068675791_1_alg».proof.Proof.KDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A host line that allocates nothing and writes exactly one buffer, which satisfies `P`. -/
inductive Line (P : Ref sig .tc → Prop) (op : HloOp τ sig (Elt F)) : Prop
  | mk (y : Ref sig .tc) (hf : op.fresh = ∅) (hw : op.writes = {Proc.devRef (τ := τ) .tc y}) (hy : P y)

/-- Such a line writes no buffer that fails `P`: its one written buffer satisfies it. -/
theorem Line.not_writes {P : Ref sig .tc → Prop} {op : HloOp τ sig (Elt F)} (h : Line P op) {r : Ref sig .tc} (hr : ¬ P r) :
    Proc.devRef (τ := τ) .tc r ∉ op.writes := by
  obtain ⟨y, -, hw, hy⟩ := h
  rw [hw, Finset.mem_singleton]
  exact fun e => hr (by rw [Proc.devRef_injective _ e]; exact hy)

/-- Numbered after the arguments. -/
abbrev Late (y : Ref sig .tc) : Prop := 23 ≤ y.idx.val
/-- Numbered after the arguments and no array of the region. -/
abbrev Off (y : Ref sig .tc) : Prop := 23 ≤ y.idx.val ∧ ∀ w, Pipeline.arrRef spec0 w ≠ y

theorem pre_line : (preOpss (F := F)).Forall fun ops => ops.Forall (Line Late) := by
  simp only [List.Forall]
  repeat' apply And.intro
  all_goals exact ⟨_, rfl, rfl, by decide⟩

theorem post_line : (postOpss (F := F)).Forall fun ops => ops.Forall (Line Off) := by
  simp only [List.Forall]
  repeat' apply And.intro
  all_goals exact ⟨_, rfl, rfl, by decide⟩

/-- A property of every line of every stretch, read at a line. -/
theorem mem₂ {α : Type} {p : α → Prop} {ls : List (List α)} (h : ls.Forall fun l => l.Forall p) : ∀ l ∈ ls, ∀ a ∈ l, p a :=
  fun l hl => List.forall_iff_forall_mem.mp (List.forall_iff_forall_mem.mp h l hl)

/-- Lines that each write one buffer satisfying `P`, laid end to end, write no buffer that fails `P`. -/
theorem not_written {P : Ref sig .tc → Prop} {ls : List (List (HloOp τ sig (Elt F)))} (h : ls.Forall fun l => l.Forall (Line P))
    {r : Ref sig .tc} (hr : ¬ P r) : ∀ op ∈ ls.flatten, Proc.devRef (τ := τ) .tc r ∉ op.writes := fun op hop =>
  let ⟨l, hl, ho⟩ := List.mem_flatten.mp hop
  (mem₂ h l hl op ho).not_writes hr

theorem pre_sub : (preOpss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub⟩
theorem post_sub : (postOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub⟩

theorem hmain (𝒱₀ : Variants) : Pipeline.HMainK (Ix := Unit) (Name := ℕ) (U := UR sig nD τ) (Lvl := ℕ) cfgs 0 defs₀ 𝒱₀ m (main (F := F)) (V m)
      (fun _ => Pipeline.chain ((postOpss (F := F)).map StableHlo.seq)) :=
  Pipeline.hmain_around cfgs 0 defs₀ 𝒱₀ m main preOpss postOpss pre_sub
    (pre_line.imp fun _ h => h.imp fun _ ⟨_, hf, _, _⟩ => hf) main_chain

theorem sfx_sub : ∀ ops ∈ (postOpss : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (mem₂ post_sub ops hops op hop)

theorem sfx_fresh : ∀ ops ∈ (postOpss : List (List (HloOp τ sig (Elt F)))), ∀ op ∈ ops, op.fresh = ∅ :=
  fun ops hops op hop => let ⟨_, hf, _, _⟩ := mem₂ post_line ops hops op hop; hf

theorem sfx_keeps : ∀ ops ∈ (postOpss : List (List (HloOp τ sig (Elt F)))), ∀ op ∈ ops,
    ∀ w, Proc.devRef .tc (Pipeline.arrRef spec0 w) ∉ op.writes :=
  fun ops hops op hop w => (mem₂ post_line ops hops op hop).not_writes fun h => h.2 w rfl

/-- The region's arrays are numbered after the arguments too. -/
theorem arr_ne (r : Ref sig .tc) (hr : r.idx.val < 23) (w : Fin 11) : Pipeline.arrRef spec0 w ≠ r := by
  intro e
  have h : ∀ w : Fin 11, 23 ≤ (Pipeline.arrRef spec0 w).idx.val := by decide
  have := h w
  rw [e] at this
  omega

/-- A buffer numbered below twenty-three holds its launch contents after the lines that follow the region: no line
    before the region writes it, it is no array of the region, no line after the region writes it. -/
theorem kept (r : Ref sig .tc) (hr : r.idx.val < 23) (c : Dev nD) :
    Pipeline.afterTail₀ cfgs (dats m) 0 (V0 m) postOpss c r = m ((c.tc : Thread nD τ).loc r) := by
  have low : ¬ Late r := Nat.not_le.mpr hr
  unfold Pipeline.afterTail₀
  rw [StableHlo.after_of_forall_not_mem _ _ (not_written post_line fun h => low h.1),
    Pipeline.withArrays_of_ne _ c _ _ r (arr_ne r hr)]
  exact StableHlo.after_of_forall_not_mem _ _ (not_written pre_line low)

/-- The two results the later host lines compute are no array of the region. -/
theorem rest_main_v32 : main_v32 ∈ Pipeline.restRefs sig spec0 := Pipeline.mem_restRefs_of main_v32 rfl (by decide)
theorem rest_main_v95 : main_v95 ∈ Pipeline.restRefs sig spec0 := Pipeline.mem_restRefs_of main_v95 rfl (by decide)

/-- So in a final state of the run such a buffer holds what it held at the launch. -/
theorem arg_kept {s : PUnit × MemSt nD τ sig (Elt F)}
    (h : Pipeline.FramePost cfgs (dats m) 0 (Pipeline.afterTail₀ cfgs (dats m) 0 (V0 m) postOpss) s) (c : Dev nD)
    (r : Ref sig .tc) (hs : r.isScoped = false) (hr : r.idx.val < 23) :
    s.2.mem ((c.tc : Thread nD τ).loc r) = m ((c.tc : Thread nD τ).loc r) :=
  ((h c).2 r (Pipeline.mem_restRefs_of r hs (arr_ne r hr))).trans (kept m r hr c)

/-- Before the body at any grid point an input window holds its block of the array. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)

end Cert.Kernel.Hand

end
-- ==== Proof.KBody.lean ====
import proofs.«414085_j14620068675791_1_alg».proof.Proof.KDefs
import proofs.«414085_j14620068675791_1_alg».proof.Proof.KKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One store through the rectangle of the whole window reaches every cell of it. -/
theorem cover_O (p0 : Vec F S3200x128 .f32) (y : S3200x128.Idx) :
    ∃ pc ∈ ([⟨rO, p0⟩] : List (View.Piece (Elt F) S3200x128 .f32)), y ∈ pc.1.set :=
  View.cover_of_tiled [⟨rO, p0⟩] S3200x128.size (by rfl) y

set_option maxHeartbeats 4000000 in
/-- The body leaves each input as it found it and each output at the perceptron of the inputs, whatever the output held:
    one store covers the whole output. -/
theorem sound_kernel (c : Dev nD) (E : Set ℕ) (i : grid0.Coords)
    (arg1 : Memref sig .tc .vmem S3200x512 .bf16) (harg1 : arg1.IsWhole)
    (arg2 : Memref sig .tc .vmem S512x256 .bf16) (harg2 : arg2.IsWhole)
    (arg3 : Memref sig .tc .vmem S1x256 .f32) (harg3 : arg3.IsWhole)
    (arg4 : Memref sig .tc .vmem S256x128 .bf16) (harg4 : arg4.IsWhole)
    (arg5 : Memref sig .tc .vmem S1x128 .f32) (harg5 : arg5.IsWhole)
    (arg6 : Memref sig .tc .vmem S512x256 .bf16) (harg6 : arg6.IsWhole)
    (arg7 : Memref sig .tc .vmem S1x256 .f32) (harg7 : arg7.IsWhole)
    (arg8 : Memref sig .tc .vmem S256x128 .bf16) (harg8 : arg8.IsWhole)
    (arg9 : Memref sig .tc .vmem S1x128 .f32) (harg9 : arg9.IsWhole)
    (arg10 : Memref sig .tc .vmem S3200x128 .f32) (harg10 : arg10.IsWhole)
    (arg11 : Memref sig .tc .vmem S3200x128 .f32) (harg11 : arg11.IsWhole)
    (x0 : Vec F S3200x512 .bf16) (x1 : Vec F S512x256 .bf16) (x2 : Vec F S1x256 .f32) (x3 : Vec F S256x128 .bf16) (x4 : Vec F S1x128 .f32) (x5 : Vec F S512x256 .bf16) (x6 : Vec F S1x256 .f32) (x7 : Vec F S256x128 .bf16) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4) ∗ owns (c : Thread nD τ) arg11 fullShare (out0_10 x0 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_O _)
  iexists _; isplitr
  swap; · iexact H10
  ipureintro
  exact View.read_writes_eq_canon _ _ _ (cover_O _)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
/-- At a grid point each input window holds its block of the array, so the body's triple applies at those blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The program terminates with each array of the region at what the proof data name and every other buffer at what the
    later host lines make of the contents the region found. -/
theorem run_main : θ_run defs (onTc (τ := τ) (main (F := F))) (s₀ m ρ) (Pipeline.FramePost cfgs (dats m) 0 (Pipeline.afterTail₀ cfgs (dats m) 0 (V0 m) postOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOpss) (hsub := sfx_sub) (hfresh := sfx_fresh) (hkeep := sfx_keeps)
    (hmain := hmain m Variants.none) (hA := A_eq m) (hΦ := fun _ _ => rfl)

end Cert.Kernel.Hand

end
-- ==== Proof.KIDefs.lean ====
import proofs.«414085_j14620068675791_1_alg».proof.Proof.Gen.KernelIdeal.Launch
import proofs.«414085_j14620068675791_1_alg».proof.Proof.Gen.KernelIdeal.Skeleton
import proofs.«414085_j14620068675791_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev preOpss : List (List (HloOp τ sig (Elt F))) := [hostOps0, hostOps0_1, hostOps0_2, hostOps0_3, hostOps0_4, hostOps0_5, hostOps0_6, hostOps0_7, hostOps0_8, hostOps0_9]

abbrev postOpss : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23]

/-- Core `c`'s buffers when the region is entered: the launch contents after the host lines before it. -/
abbrev V0 (c : Dev nD) : Valuation τ sig (Elt F) := StableHlo.after (List.flatten preOpss) (fun b => m (c, b))

abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev rX : Rect S3200x512 := Rect.unit (s := S3200x512) ![0, 0] S3200x512.size inb_S3200x512_S3200x512_0_0
abbrev rW0 : Rect S512x256 := Rect.unit (s := S512x256) ![0, 0] S512x256.size inb_S512x256_S512x256_0_0
abbrev rB0 : Rect S1x256 := Rect.unit (s := S1x256) ![0, 0] S1x256.size inb_S1x256_S1x256_0_0
abbrev rW1 : Rect S256x128 := Rect.unit (s := S256x128) ![0, 0] S256x128.size inb_S256x128_S256x128_0_0
abbrev rB1 : Rect S1x128 := Rect.unit (s := S1x128) ![0, 0] S1x128.size inb_S1x128_S1x128_0_0
abbrev rO : Rect S3200x128 := Rect.unit (s := S3200x128) ![0, 0] S3200x128.size inb_S3200x128_S3200x128_0_0

/-- The node perceptron of a row block. -/
def out0_9 (x0 : Vec F S3200x512 .bf16) (x1 : Vec F S512x256 .bf16) (x2 : Vec F S1x256 .f32) (x3 : Vec F S256x128 .bf16) (x4 : Vec F S1x128 .f32) : Vec F S3200x128 .f32 :=
  View.canon [⟨rO, k0_pay3 (View.ld x0 rX) (View.ld x1 rW0) (View.ld x2 rB0) (View.ld x3 rW1) (View.ld x4 rB1)⟩]

/-- The edge perceptron of the same row block. -/
def out0_10 (x0 : Vec F S3200x512 .bf16) (x5 : Vec F S512x256 .bf16) (x6 : Vec F S1x256 .f32) (x7 : Vec F S256x128 .bf16) (x8 : Vec F S1x128 .f32) : Vec F S3200x128 .f32 :=
  View.canon [⟨rO, k0_pay1 (k0_pay4 (View.ld x0 rX) (View.ld x5 rW0) (View.ld x6 rB0)) (View.ld x7 rW1) (View.ld x8 rB1)⟩]

/-- After the body at point `t` each input window is at its block and the two outputs at the perceptrons of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t)
    | ⟨10, _⟩ => out0_10 (iblk m c 0 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]
theorem after0_10 (c : Dev nD) (t : Fin cfg0.N) : (dats m 0 c).after 10 t = out0_10 (iblk m c 0 t) (iblk m c 5 t) (iblk m c 6 t) (iblk m c 7 t) (iblk m c 8 t) := by dsimp only [dats]

end Cert.KernelIdeal.Hand

end
-- ==== Proof.KIKit.lean ====
/-
  The program around the region.  Every host line allocates nothing and writes exactly one buffer, its own
  result, numbered after the twenty-three arguments; a line after the region writes no array of the region.
  Hence an argument holds at the end what it held at the launch.
-/
import proofs.«414085_j14620068675791_1_alg».proof.Proof.KIDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A host line that allocates nothing and writes exactly one buffer, which satisfies `P`. -/
inductive Line (P : Ref sig .tc → Prop) (op : HloOp τ sig (Elt F)) : Prop
  | mk (y : Ref sig .tc) (hf : op.fresh = ∅) (hw : op.writes = {Proc.devRef (τ := τ) .tc y}) (hy : P y)

/-- Such a line writes no buffer that fails `P`: its one written buffer satisfies it. -/
theorem Line.not_writes {P : Ref sig .tc → Prop} {op : HloOp τ sig (Elt F)} (h : Line P op) {r : Ref sig .tc} (hr : ¬ P r) :
    Proc.devRef (τ := τ) .tc r ∉ op.writes := by
  obtain ⟨y, -, hw, hy⟩ := h
  rw [hw, Finset.mem_singleton]
  exact fun e => hr (by rw [Proc.devRef_injective _ e]; exact hy)

/-- Numbered after the arguments. -/
abbrev Late (y : Ref sig .tc) : Prop := 23 ≤ y.idx.val
/-- Numbered after the arguments and no array of the region. -/
abbrev Off (y : Ref sig .tc) : Prop := 23 ≤ y.idx.val ∧ ∀ w, Pipeline.arrRef spec0 w ≠ y

theorem pre_line : (preOpss (F := F)).Forall fun ops => ops.Forall (Line Late) := by
  simp only [List.Forall]
  repeat' apply And.intro
  all_goals exact ⟨_, rfl, rfl, by decide⟩

theorem post_line : (postOpss (F := F)).Forall fun ops => ops.Forall (Line Off) := by
  simp only [List.Forall]
  repeat' apply And.intro
  all_goals exact ⟨_, rfl, rfl, by decide⟩

/-- A property of every line of every stretch, read at a line. -/
theorem mem₂ {α : Type} {p : α → Prop} {ls : List (List α)} (h : ls.Forall fun l => l.Forall p) : ∀ l ∈ ls, ∀ a ∈ l, p a :=
  fun l hl => List.forall_iff_forall_mem.mp (List.forall_iff_forall_mem.mp h l hl)

/-- Lines that each write one buffer satisfying `P`, laid end to end, write no buffer that fails `P`. -/
theorem not_written {P : Ref sig .tc → Prop} {ls : List (List (HloOp τ sig (Elt F)))} (h : ls.Forall fun l => l.Forall (Line P))
    {r : Ref sig .tc} (hr : ¬ P r) : ∀ op ∈ ls.flatten, Proc.devRef (τ := τ) .tc r ∉ op.writes := fun op hop =>
  let ⟨l, hl, ho⟩ := List.mem_flatten.mp hop
  (mem₂ h l hl op ho).not_writes hr

theorem pre_sub : (preOpss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub⟩
theorem post_sub : (postOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub⟩

theorem hmain (𝒱₀ : Variants) : Pipeline.HMainK (Ix := Unit) (Name := ℕ) (U := UR sig nD τ) (Lvl := ℕ) cfgs 0 defs₀ 𝒱₀ m (main (F := F)) (V m)
      (fun _ => Pipeline.chain ((postOpss (F := F)).map StableHlo.seq)) :=
  Pipeline.hmain_around cfgs 0 defs₀ 𝒱₀ m main preOpss postOpss pre_sub
    (pre_line.imp fun _ h => h.imp fun _ ⟨_, hf, _, _⟩ => hf) main_chain

theorem sfx_sub : ∀ ops ∈ (postOpss : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (mem₂ post_sub ops hops op hop)

theorem sfx_fresh : ∀ ops ∈ (postOpss : List (List (HloOp τ sig (Elt F)))), ∀ op ∈ ops, op.fresh = ∅ :=
  fun ops hops op hop => let ⟨_, hf, _, _⟩ := mem₂ post_line ops hops op hop; hf

theorem sfx_keeps : ∀ ops ∈ (postOpss : List (List (HloOp τ sig (Elt F)))), ∀ op ∈ ops,
    ∀ w, Proc.devRef .tc (Pipeline.arrRef spec0 w) ∉ op.writes :=
  fun ops hops op hop w => (mem₂ post_line ops hops op hop).not_writes fun h => h.2 w rfl

/-- The region's arrays are numbered after the arguments too. -/
theorem arr_ne (r : Ref sig .tc) (hr : r.idx.val < 23) (w : Fin 11) : Pipeline.arrRef spec0 w ≠ r := by
  intro e
  have h : ∀ w : Fin 11, 23 ≤ (Pipeline.arrRef spec0 w).idx.val := by decide
  have := h w
  rw [e] at this
  omega

/-- A buffer numbered below twenty-three holds its launch contents after the lines that follow the region: no line
    before the region writes it, it is no array of the region, no line after the region writes it. -/
theorem kept (r : Ref sig .tc) (hr : r.idx.val < 23) (c : Dev nD) :
    Pipeline.afterTail₀ cfgs (dats m) 0 (V0 m) postOpss c r = m ((c.tc : Thread nD τ).loc r) := by
  have low : ¬ Late r := Nat.not_le.mpr hr
  unfold Pipeline.afterTail₀
  rw [StableHlo.after_of_forall_not_mem _ _ (not_written post_line fun h => low h.1),
    Pipeline.withArrays_of_ne _ c _ _ r (arr_ne r hr)]
  exact StableHlo.after_of_forall_not_mem _ _ (not_written pre_line low)

/-- The two results the later host lines compute are no array of the region. -/
theorem rest_main_v32 : main_v32 ∈ Pipeline.restRefs sig spec0 := Pipeline.mem_restRefs_of main_v32 rfl (by decide)
theorem rest_main_v95 : main_v95 ∈ Pipeline.restRefs sig spec0 := Pipeline.mem_restRefs_of main_v95 rfl (by decide)

/-- So in a final state of the run such a buffer holds what it held at the launch. -/
theorem arg_kept {s : PUnit × MemSt nD τ sig (Elt F)}
    (h : Pipeline.FramePost cfgs (dats m) 0 (Pipeline.afterTail₀ cfgs (dats m) 0 (V0 m) postOpss) s) (c : Dev nD)
    (r : Ref sig .tc) (hs : r.isScoped = false) (hr : r.idx.val < 23) :
    s.2.mem ((c.tc : Thread nD τ).loc r) = m ((c.tc : Thread nD τ).loc r) :=
  ((h c).2 r (Pipeline.mem_restRefs_of r hs (arr_ne r hr))).trans (kept m r hr c)

/-- Before the body at any grid point an input window holds its block of the array. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)

end Cert.KernelIdeal.Hand

end
-- ==== Proof.KIBody.lean ====
import proofs.«414085_j14620068675791_1_alg».proof.Proof.KIDefs
import proofs.«414085_j14620068675791_1_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One store through the rectangle of the whole window reaches every cell of it. -/
theorem cover_O (p0 : Vec F S3200x128 .f32) (y : S3200x128.Idx) :
    ∃ pc ∈ ([⟨rO, p0⟩] : List (View.Piece (Elt F) S3200x128 .f32)), y ∈ pc.1.set :=
  View.cover_of_tiled [⟨rO, p0⟩] S3200x128.size (by rfl) y

set_option maxHeartbeats 4000000 in
/-- The body leaves each input as it found it and each output at the perceptron of the inputs, whatever the output held:
    one store covers the whole output. -/
theorem sound_kernel (c : Dev nD) (E : Set ℕ) (i : grid0.Coords)
    (arg1 : Memref sig .tc .vmem S3200x512 .bf16) (harg1 : arg1.IsWhole)
    (arg2 : Memref sig .tc .vmem S512x256 .bf16) (harg2 : arg2.IsWhole)
    (arg3 : Memref sig .tc .vmem S1x256 .f32) (harg3 : arg3.IsWhole)
    (arg4 : Memref sig .tc .vmem S256x128 .bf16) (harg4 : arg4.IsWhole)
    (arg5 : Memref sig .tc .vmem S1x128 .f32) (harg5 : arg5.IsWhole)
    (arg6 : Memref sig .tc .vmem S512x256 .bf16) (harg6 : arg6.IsWhole)
    (arg7 : Memref sig .tc .vmem S1x256 .f32) (harg7 : arg7.IsWhole)
    (arg8 : Memref sig .tc .vmem S256x128 .bf16) (harg8 : arg8.IsWhole)
    (arg9 : Memref sig .tc .vmem S1x128 .f32) (harg9 : arg9.IsWhole)
    (arg10 : Memref sig .tc .vmem S3200x128 .f32) (harg10 : arg10.IsWhole)
    (arg11 : Memref sig .tc .vmem S3200x128 .f32) (harg11 : arg11.IsWhole)
    (x0 : Vec F S3200x512 .bf16) (x1 : Vec F S512x256 .bf16) (x2 : Vec F S1x256 .f32) (x3 : Vec F S256x128 .bf16) (x4 : Vec F S1x128 .f32) (x5 : Vec F S512x256 .bf16) (x6 : Vec F S1x256 .f32) (x7 : Vec F S256x128 .bf16) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4) ∗ owns (c : Thread nD τ) arg11 fullShare (out0_10 x0 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_O _)
  iexists _; isplitr
  swap; · iexact H10
  ipureintro
  exact View.read_writes_eq_canon _ _ _ (cover_O _)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
/-- At a grid point each input window holds its block of the array, so the body's triple applies at those blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The program terminates with each array of the region at what the proof data name and every other buffer at what the
    later host lines make of the contents the region found. -/
theorem run_main : θ_run defs (onTc (τ := τ) (main (F := F))) (s₀ m ρ) (Pipeline.FramePost cfgs (dats m) 0 (Pipeline.afterTail₀ cfgs (dats m) 0 (V0 m) postOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOpss) (hsub := sfx_sub) (hfresh := sfx_fresh) (hkeep := sfx_keeps)
    (hmain := hmain m Variants.none) (hA := A_eq m) (hΦ := fun _ _ => rfl)

end Cert.KernelIdeal.Hand

end
-- ==== Proof.RefOps.lean ====
/-
  The reference program's host operations as lists, in program order: a straight line, cut into stretches
  where @main calls a function (the called function's operations, over the buffers of that call, are a stretch
  of their own).  Each operation reads some buffers and writes one fresh buffer later in the table than the
  23 arguments.
-/
import proofs.«414085_j14620068675791_1_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The operation writes no argument of the program: no buffer among the first 23 of the table. -/
def KeepsArgs (op : HloOp τ sig (Elt F)) : Prop :=
  ∀ r : Ref sig .tc, r.idx.val < 23 → (Proc.devRef (τ := τ) .tc r) ∉ op.writes

/-- An operation whose one written buffer comes after the arguments in the table writes no argument. -/
theorem keepsArgs_of_writes {op : HloOp τ sig (Elt F)} {y : Ref sig .tc}
    (hw : op.writes = {Proc.devRef (τ := τ) .tc y}) (hy : 23 ≤ y.idx.val) : KeepsArgs op := by
  intro r hr hmem
  rw [hw, Finset.mem_singleton] at hmem
  have := Proc.devRef_injective _ hmem
  subst this
  omega

abbrev ops0 : List (HloOp τ sig (Elt F)) :=
  [ StableHlo.TRef.unary (.of main_arg6 : StableHlo.TRef sig ⟨S8, .i32⟩) (.of main_call0_v0 : StableHlo.TRef sig ⟨S1, .i32⟩) (extractStridedSlice S1 ![7] · slices_S8_S1_7),
    StableHlo.TRef.unary (.of main_arg6 : StableHlo.TRef sig ⟨S8, .i32⟩) (.of main_call0_v1 : StableHlo.TRef sig ⟨S7, .i32⟩) (extractStridedSlice S7 ![0] · slices_S8_S7_0),
    StableHlo.TRef.binary (.of main_call0_v0 : StableHlo.TRef sig ⟨S1, .i32⟩) (.of main_call0_v1 : StableHlo.TRef sig ⟨S7, .i32⟩) (.of main_v0 : StableHlo.TRef sig ⟨S8, .i32⟩) (fun a b => concatenate S8 0 [⟨S1, a⟩, ⟨S7, b⟩] concatenates_S1_S7_S8_d0) ]
theorem ops0_keeps : (ops0 : List (HloOp τ sig (Elt F))).Forall KeepsArgs :=
  ⟨keepsArgs_of_writes rfl (by decide), keepsArgs_of_writes rfl (by decide), keepsArgs_of_writes rfl (by decide)⟩

abbrev ops1 : List (HloOp τ sig (Elt F)) :=
  [ StableHlo.nullary main_c (constantI S_ 32 0#32),
    StableHlo.unary main_c main_v1 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v0 main_v1 main_c_0 main_v2 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)) ]
theorem ops1_keeps : (ops1 : List (HloOp τ sig (Elt F))).Forall KeepsArgs :=
  ⟨keepsArgs_of_writes rfl (by decide), keepsArgs_of_writes rfl (by decide), keepsArgs_of_writes rfl (by decide), keepsArgs_of_writes rfl (by decide)⟩

abbrev ops2 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v2 : StableHlo.TRef sig ⟨S8, .i32⟩) (.of main_call1_call0_v0 : StableHlo.TRef sig ⟨S_, .i32⟩) (.of main_v3 : StableHlo.TRef sig ⟨S8, .i32⟩) (fun x v => Host.reduceWindow IntOp.addi ![8] ![1] ![7] ![0] x v reduceWindows_S8_S8_w8s1p7_0 h_S_) ]
theorem ops2_keeps : (ops2 : List (HloOp τ sig (Elt F))).Forall KeepsArgs :=
  ⟨keepsArgs_of_writes rfl (by decide), keepsArgs_of_writes rfl (by decide), keepsArgs_of_writes rfl (by decide)⟩

abbrev ops3 : List (HloOp τ sig (Elt F)) :=
  [ StableHlo.nullary main_c_1 (constantI S_ 32 0#32),
    StableHlo.unary main_c_1 main_v4 (broadcastInDim S400000 ![] bcast_S_S400000 : (⟨S_, .i32⟩ : BufTy).Contents (Elt F) → (⟨S400000, .i32⟩ : BufTy).Contents (Elt F)),
    StableHlo.nullary main_c_2 (constantI S_ 32 0#32),
    StableHlo.unary main_c_2 main_v5 (broadcastInDim S8 ![] bcast_S_S8 : (⟨S_, .i32⟩ : BufTy).Contents (Elt F) → (⟨S8, .i32⟩ : BufTy).Contents (Elt F)),
    StableHlo.binary main_v3 main_v5 main_v6 (cmpi .slt : (⟨S8, .i32⟩ : BufTy).Contents (Elt F) → (⟨S8, .i32⟩ : BufTy).Contents (Elt F) → (⟨S8, .i1⟩ : BufTy).Contents (Elt F)),
    StableHlo.nullary main_c_3 (constantI S_ 32 400000#32),
    StableHlo.unary main_c_3 main_v7 (broadcastInDim S8 ![] bcast_S_S8 : (⟨S_, .i32⟩ : BufTy).Contents (Elt F) → (⟨S8, .i32⟩ : BufTy).Contents (Elt F)),
    StableHlo.binary main_v3 main_v7 main_v8 (addi : (⟨S8, .i32⟩ : BufTy).Contents (Elt F) → (⟨S8, .i32⟩ : BufTy).Contents (Elt F) → (⟨S8, .i32⟩ : BufTy).Contents (Elt F)),
    StableHlo.ternary main_v6 main_v8 main_v3 main_v9 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v9 main_v10 (broadcastInDim S8x1 ![0] bcast_S8_S8x1_0 : (⟨S8, .i32⟩ : BufTy).Contents (Elt F) → (⟨S8x1, .i32⟩ : BufTy).Contents (Elt F)),
    StableHlo.nullary main_c_4 (constantI S_ 32 1#32),
    StableHlo.unary main_c_4 main_v11 (broadcastInDim S8 ![] bcast_S_S8 : (⟨S_, .i32⟩ : BufTy).Contents (Elt F) → (⟨S8, .i32⟩ : BufTy).Contents (Elt F)),
    StableHlo.ternary main_v4 main_v10 main_v11 main_v12 ((fun x i u => Host.scatter scatter_S400000_S8x1_S8_n_0_0_1 IntOp.addi x i u) : (⟨S400000, .i32⟩ : BufTy).Contents (Elt F) → (⟨S8x1, .i32⟩ : BufTy).Contents (Elt F) → (⟨S8, .i32⟩ : BufTy).Contents (Elt F) → (⟨S400000, .i32⟩ : BufTy).Contents (Elt F)) ]
theorem ops3_keeps : (ops3 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops4 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v12 : StableHlo.TRef sig ⟨S400000, .i32⟩) (.of main_call2_call0_v0 : StableHlo.TRef sig ⟨S_, .i32⟩) (.of main_v13 : StableHlo.TRef sig ⟨S400000, .i32⟩) (fun x v => Host.reduceWindow IntOp.addi ![400000] ![1] ![399999] ![0] x v reduceWindows_S400000_S400000_w400000s1p399999_0 h_S_) ]
theorem ops4_keeps : (ops4 : List (HloOp τ sig (Elt F))).Forall KeepsArgs :=
  ⟨keepsArgs_of_writes rfl (by decide), keepsArgs_of_writes rfl (by decide), keepsArgs_of_writes rfl (by decide)⟩

abbrev ops5 : List (HloOp τ sig (Elt F)) :=
  [ StableHlo.nullary main_c_5 (constantI S_ 32 1#32),
    StableHlo.unary main_c_5 main_v14 (broadcastInDim S400000 ![] bcast_S_S400000 : (⟨S_, .i32⟩ : BufTy).Contents (Elt F) → (⟨S400000, .i32⟩ : BufTy).Contents (Elt F)),
    StableHlo.binary main_v13 main_v14 main_v15 (subi : (⟨S400000, .i32⟩ : BufTy).Contents (Elt F) → (⟨S400000, .i32⟩ : BufTy).Contents (Elt F) → (⟨S400000, .i32⟩ : BufTy).Contents (Elt F)) ]
theorem ops5_keeps : (ops5 : List (HloOp τ sig (Elt F))).Forall KeepsArgs :=
  ⟨keepsArgs_of_writes rfl (by decide), keepsArgs_of_writes rfl (by decide), keepsArgs_of_writes rfl (by decide)⟩

abbrev ops6 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S400000, .i32⟩) (broadcastInDim S400000 ![] bcast_S_S400000),
    StableHlo.TRef.binary (.of main_v15 : StableHlo.TRef sig ⟨S400000, .i32⟩) (.of main_call3_v0 : StableHlo.TRef sig ⟨S400000, .i32⟩) (.of main_call3_v1 : StableHlo.TRef sig ⟨S400000, .i1⟩) (cmpi .slt),
    StableHlo.TRef.nullary (.of main_call3_c_0 : StableHlo.TRef sig ⟨S_, .i32⟩) (constantI S_ 32 8#32),
    StableHlo.TRef.unary (.of main_call3_c_0 : StableHlo.TRef sig ⟨S_, .i32⟩) (.of main_call3_v2 : StableHlo.TRef sig ⟨S400000, .i32⟩) (broadcastInDim S400000 ![] bcast_S_S400000),
    StableHlo.TRef.binary (.of main_v15 : StableHlo.TRef sig ⟨S400000, .i32⟩) (.of main_call3_v2 : StableHlo.TRef sig ⟨S400000, .i32⟩) (.of main_call3_v3 : StableHlo.TRef sig ⟨S400000, .i32⟩) addi,
    StableHlo.TRef.ternary (.of main_call3_v1 : StableHlo.TRef sig ⟨S400000, .i1⟩) (.of main_call3_v3 : StableHlo.TRef sig ⟨S400000, .i32⟩) (.of main_v15 : StableHlo.TRef sig ⟨S400000, .i32⟩) (.of main_call3_v4 : StableHlo.TRef sig ⟨S400000, .i32⟩) select,
    StableHlo.TRef.unary (.of main_call3_v4 : StableHlo.TRef sig ⟨S400000, .i32⟩) (.of main_call3_v5 : StableHlo.TRef sig ⟨S400000x1, .i32⟩) (broadcastInDim S400000x1 ![0] bcast_S400000_S400000x1_0),
    StableHlo.TRef.nullary (.of main_call3_c_1 : StableHlo.TRef sig ⟨S1, .i32⟩) (constantI S1 32 7#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S400000x1, .i32⟩) (broadcastInDim S400000x1 ![] bcast_S_S400000x1),
    StableHlo.TRef.binary (.of main_call3_v5 : StableHlo.TRef sig ⟨S400000x1, .i32⟩) (.of main_call3_v6 : StableHlo.TRef sig ⟨S400000x1, .i32⟩) (.of main_call3_v7 : StableHlo.TRef sig ⟨S400000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S400000x1, .i32⟩) (broadcastInDim S400000x1 ![0, 1] bcast_S1x1_S400000x1_0_1),
    StableHlo.TRef.binary (.of main_call3_v5 : StableHlo.TRef sig ⟨S400000x1, .i32⟩) (.of main_call3_v9 : StableHlo.TRef sig ⟨S400000x1, .i32⟩) (.of main_call3_v10 : StableHlo.TRef sig ⟨S400000x1, .i1⟩) (cmpi .sle),
    StableHlo.TRef.binary (.of main_call3_v7 : StableHlo.TRef sig ⟨S400000x1, .i1⟩) (.of main_call3_v10 : StableHlo.TRef sig ⟨S400000x1, .i1⟩) (.of main_call3_v11 : StableHlo.TRef sig ⟨S400000x1, .i1⟩) andi,
    StableHlo.TRef.nullary (.of main_call3_c_3 : StableHlo.TRef sig ⟨S_, .i1⟩) (constantI S_ 1 1#1),
    StableHlo.TRef.binary (.of main_call3_v11 : StableHlo.TRef sig ⟨S400000x1, .i1⟩) (.of main_call3_c_3 : StableHlo.TRef sig ⟨S_, .i1⟩) (.of main_call3_v12 : StableHlo.TRef sig ⟨S400000, .i1⟩) (fun x v => Host.reduce IntOp.andi x v reducesTo_S400000x1_S400000_d1 h_S_),
    StableHlo.TRef.binary (.of main_arg2 : StableHlo.TRef sig ⟨S8x128, .f32⟩) (.of main_call3_v5 : StableHlo.TRef sig ⟨S400000x1, .i32⟩) (.of main_call3_v13 : StableHlo.TRef sig ⟨S400000x128, .f32⟩) (fun x i => Host.gather gather_S8x128_S400000x1_S400000x128_1_0_n_n_0_1_1128 x i),
    StableHlo.TRef.unary (.of main_call3_v12 : StableHlo.TRef sig ⟨S400000, .i1⟩) (.of main_call3_v14 : StableHlo.TRef sig ⟨S400000x128, .i1⟩) (broadcastInDim S400000x128 ![0] bcast_S400000_S400000x128_0),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S400000x128, .f32⟩) (broadcastInDim S400000x128 ![] bcast_S_S400000x128),
    StableHlo.TRef.ternary (.of main_call3_v14 : StableHlo.TRef sig ⟨S400000x128, .i1⟩) (.of main_call3_v13 : StableHlo.TRef sig ⟨S400000x128, .f32⟩) (.of main_call3_v15 : StableHlo.TRef sig ⟨S400000x128, .f32⟩) (.of main_v16 : StableHlo.TRef sig ⟨S400000x128, .f32⟩) select ]
theorem ops6_keeps : (ops6 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops7 : List (HloOp τ sig (Elt F)) :=
  [ StableHlo.nullary main_c_6 (constantI S_ 32 0#32),
    StableHlo.unary main_c_6 main_v17 (broadcastInDim S400000 ![] bcast_S_S400000 : (⟨S_, .i32⟩ : BufTy).Contents (Elt F) → (⟨S400000, .i32⟩ : BufTy).Contents (Elt F)),
    StableHlo.binary main_arg3 main_v17 main_v18 (cmpi .slt : (⟨S400000, .i32⟩ : BufTy).Contents (Elt F) → (⟨S400000, .i32⟩ : BufTy).Contents (Elt F) → (⟨S400000, .i1⟩ : BufTy).Contents (Elt F)),
    StableHlo.nullary main_c_7 (constantI S_ 32 25000#32),
    StableHlo.unary main_c_7 main_v19 (broadcastInDim S400000 ![] bcast_S_S400000 : (⟨S_, .i32⟩ : BufTy).Contents (Elt F) → (⟨S400000, .i32⟩ : BufTy).Contents (Elt F)),
    StableHlo.binary main_arg3 main_v19 main_v20 (addi : (⟨S400000, .i32⟩ : BufTy).Contents (Elt F) → (⟨S400000, .i32⟩ : BufTy).Contents (Elt F) → (⟨S400000, .i32⟩ : BufTy).Contents (Elt F)),
    StableHlo.ternary main_v18 main_v20 main_arg3 main_v21 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v21 main_v22 (broadcastInDim S400000x1 ![0] bcast_S400000_S400000x1_0 : (⟨S400000, .i32⟩ : BufTy).Contents (Elt F) → (⟨S400000x1, .i32⟩ : BufTy).Contents (Elt F)),
    StableHlo.binary main_arg0 main_v22 main_v23 ((fun x i => Host.gather gather_S25000x128_S400000x1_S400000x128_1_0_n_n_0_1_1128 x i) : (⟨S25000x128, .f32⟩ : BufTy).Contents (Elt F) → (⟨S400000x1, .i32⟩ : BufTy).Contents (Elt F) → (⟨S400000x128, .f32⟩ : BufTy).Contents (Elt F)) ]
theorem ops7_keeps : (ops7 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops8 : List (HloOp τ sig (Elt F)) :=
  [ StableHlo.nullary main_c_8 (constantI S_ 32 0#32),
    StableHlo.unary main_c_8 main_v24 (broadcastInDim S400000 ![] bcast_S_S400000 : (⟨S_, .i32⟩ : BufTy).Contents (Elt F) → (⟨S400000, .i32⟩ : BufTy).Contents (Elt F)),
    StableHlo.binary main_arg4 main_v24 main_v25 (cmpi .slt : (⟨S400000, .i32⟩ : BufTy).Contents (Elt F) → (⟨S400000, .i32⟩ : BufTy).Contents (Elt F) → (⟨S400000, .i1⟩ : BufTy).Contents (Elt F)),
    StableHlo.nullary main_c_9 (constantI S_ 32 25000#32),
    StableHlo.unary main_c_9 main_v26 (broadcastInDim S400000 ![] bcast_S_S400000 : (⟨S_, .i32⟩ : BufTy).Contents (Elt F) → (⟨S400000, .i32⟩ : BufTy).Contents (Elt F)),
    StableHlo.binary main_arg4 main_v26 main_v27 (addi : (⟨S400000, .i32⟩ : BufTy).Contents (Elt F) → (⟨S400000, .i32⟩ : BufTy).Contents (Elt F) → (⟨S400000, .i32⟩ : BufTy).Contents (Elt F)),
    StableHlo.ternary main_v25 main_v27 main_arg4 main_v28 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v28 main_v29 (broadcastInDim S400000x1 ![0] bcast_S400000_S400000x1_0 : (⟨S400000, .i32⟩ : BufTy).Contents (Elt F) → (⟨S400000x1, .i32⟩ : BufTy).Contents (Elt F)),
    StableHlo.binary main_arg0 main_v29 main_v30 ((fun x i => Host.gather gather_S25000x128_S400000x1_S400000x128_1_0_n_n_0_1_1128 x i) : (⟨S25000x128, .f32⟩ : BufTy).Contents (Elt F) → (⟨S400000x1, .i32⟩ : BufTy).Contents (Elt F) → (⟨S400000x128, .f32⟩ : BufTy).Contents (Elt F)) ]
theorem ops8_keeps : (ops8 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops9 : List (HloOp τ sig (Elt F)) :=
  [ StableHlo.nary ![main_v23, main_v30, main_arg1, main_v16] main_v31 (fun u => concatenate S400000x512 1 [⟨S400000x128, u 0⟩, ⟨S400000x128, u 1⟩, ⟨S400000x128, u 2⟩, ⟨S400000x128, u 3⟩] concatenates_S400000x128_S400000x128_S400000x128_S400000x128_S400000x512_d1) ]
theorem ops9_keeps : (ops9 : List (HloOp τ sig (Elt F))).Forall KeepsArgs :=
  keepsArgs_of_writes rfl (by decide)

abbrev ops10 : List (HloOp τ sig (Elt F)) :=
  [ StableHlo.binary main_v31 main_arg7 main_v32 ((fun l r => Host.dotGeneral dot_S400000x512_S512x256_S400000x256_1_0_0_1_n_n none l r) : (⟨S400000x512, .f32⟩ : BufTy).Contents (Elt F) → (⟨S512x256, .f32⟩ : BufTy).Contents (Elt F) → (⟨S400000x256, .f32⟩ : BufTy).Contents (Elt F)),
    StableHlo.unary main_arg8 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S400000x256 ![0, 1] bcast_S1x256_S400000x256_0_1 : (⟨S1x256, .f32⟩ : BufTy).Contents (Elt F) → (⟨S400000x256, .f32⟩ : BufTy).Contents (Elt F)),
    StableHlo.binary main_v32 main_v34 main_v35 (addf : (⟨S400000x256, .f32⟩ : BufTy).Contents (Elt F) → (⟨S400000x256, .f32⟩ : BufTy).Contents (Elt F) → (⟨S400000x256, .f32⟩ : BufTy).Contents (Elt F)) ]
theorem ops10_keeps : (ops10 : List (HloOp τ sig (Elt F))).Forall KeepsArgs :=
  ⟨keepsArgs_of_writes rfl (by decide), keepsArgs_of_writes rfl (by decide), keepsArgs_of_writes rfl (by decide), keepsArgs_of_writes rfl (by decide)⟩

abbrev ops11 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S400000x256, .f32⟩) (broadcastInDim S400000x256 ![] bcast_S_S400000x256),
    StableHlo.TRef.binary (.of main_v35 : StableHlo.TRef sig ⟨S400000x256, .f32⟩) (.of main_call4_v0 : StableHlo.TRef sig ⟨S400000x256, .f32⟩) (.of main_call4_v1 : StableHlo.TRef sig ⟨S400000x256, .i1⟩) (cmpf .oge),
    StableHlo.TRef.nullary (.of main_call4_cst_0 : StableHlo.TRef sig ⟨S_, .f32⟩) (constant S_ .f32 0x3C23D70A#32),
    StableHlo.TRef.unary (.of main_call4_cst_0 : StableHlo.TRef sig ⟨S_, .f32⟩) (.of main_call4_v2 : StableHlo.TRef sig ⟨S400000x256, .f32⟩) (broadcastInDim S400000x256 ![] bcast_S_S400000x256),
    StableHlo.TRef.binary (.of main_call4_v2 : StableHlo.TRef sig ⟨S400000x256, .f32⟩) (.of main_v35 : StableHlo.TRef sig ⟨S400000x256, .f32⟩) (.of main_call4_v3 : StableHlo.TRef sig ⟨S400000x256, .f32⟩) mulf,
    StableHlo.TRef.ternary (.of main_call4_v1 : StableHlo.TRef sig ⟨S400000x256, .i1⟩) (.of main_v35 : StableHlo.TRef sig ⟨S400000x256, .f32⟩) (.of main_call4_v3 : StableHlo.TRef sig ⟨S400000x256, .f32⟩) (.of main_v36 : StableHlo.TRef sig ⟨S400000x256, .f32⟩) select ]
theorem ops11_keeps : (ops11 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops12 : List (HloOp τ sig (Elt F)) :=
  [ StableHlo.binary main_v36 main_arg9 main_v37 ((fun l r => Host.dotGeneral dot_S400000x256_S256x128_S400000x128_1_0_0_1_n_n none l r) : (⟨S400000x256, .f32⟩ : BufTy).Contents (Elt F) → (⟨S256x128, .f32⟩ : BufTy).Contents (Elt F) → (⟨S400000x128, .f32⟩ : BufTy).Contents (Elt F)),
    StableHlo.unary main_arg10 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S400000x128 ![0, 1] bcast_S1x128_S400000x128_0_1 : (⟨S1x128, .f32⟩ : BufTy).Contents (Elt F) → (⟨S400000x128, .f32⟩ : BufTy).Contents (Elt F)),
    StableHlo.binary main_v37 main_v39 main_v40 (addf : (⟨S400000x128, .f32⟩ : BufTy).Contents (Elt F) → (⟨S400000x128, .f32⟩ : BufTy).Contents (Elt F) → (⟨S400000x128, .f32⟩ : BufTy).Contents (Elt F)) ]
theorem ops12_keeps : (ops12 : List (HloOp τ sig (Elt F))).Forall KeepsArgs :=
  ⟨keepsArgs_of_writes rfl (by decide), keepsArgs_of_writes rfl (by decide), keepsArgs_of_writes rfl (by decide), keepsArgs_of_writes rfl (by decide)⟩

abbrev ops13 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S400000x128, .f32⟩) (broadcastInDim S400000x128 ![] bcast_S_S400000x128),
    StableHlo.TRef.binary (.of main_v40 : StableHlo.TRef sig ⟨S400000x128, .f32⟩) (.of main_call5_v0 : StableHlo.TRef sig ⟨S400000x128, .f32⟩) (.of main_call5_v1 : StableHlo.TRef sig ⟨S400000x128, .i1⟩) (cmpf .oge),
    StableHlo.TRef.nullary (.of main_call5_cst_0 : StableHlo.TRef sig ⟨S_, .f32⟩) (constant S_ .f32 0x3C23D70A#32),
    StableHlo.TRef.unary (.of main_call5_cst_0 : StableHlo.TRef sig ⟨S_, .f32⟩) (.of main_call5_v2 : StableHlo.TRef sig ⟨S400000x128, .f32⟩) (broadcastInDim S400000x128 ![] bcast_S_S400000x128),
    StableHlo.TRef.binary (.of main_call5_v2 : StableHlo.TRef sig ⟨S400000x128, .f32⟩) (.of main_v40 : StableHlo.TRef sig ⟨S400000x128, .f32⟩) (.of main_call5_v3 : StableHlo.TRef sig ⟨S400000x128, .f32⟩) mulf,
    StableHlo.TRef.ternary (.of main_call5_v1 : StableHlo.TRef sig ⟨S400000x128, .i1⟩) (.of main_v40 : StableHlo.TRef sig ⟨S400000x128, .f32⟩) (.of main_call5_v3 : StableHlo.TRef sig ⟨S400000x128, .f32⟩) (.of main_v41 : StableHlo.TRef sig ⟨S400000x128, .f32⟩) select ]
theorem ops13_keeps : (ops13 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops14 : List (HloOp τ sig (Elt F)) :=
  [ StableHlo.nullary main_cst (constant S_ .f32 0x00000000#32),
    StableHlo.unary main_cst main_v42 (broadcastInDim S25000x128 ![] bcast_S_S25000x128 : (⟨S_, .f32⟩ : BufTy).Contents (Elt F) → (⟨S25000x128, .f32⟩ : BufTy).Contents (Elt F)),
    StableHlo.unary main_arg4 main_v43 (broadcastInDim S400000x1 ![0] bcast_S400000_S400000x1_0 : (⟨S400000, .i32⟩ : BufTy).Contents (Elt F) → (⟨S400000x1, .i32⟩ : BufTy).Contents (Elt F)),
    StableHlo.ternary main_v42 main_v43 main_v41 main_v44 ((fun x i u => Host.scatterAdd scatter_S25000x128_S400000x1_S400000x128_1_0_0_1 x i u) : (⟨S25000x128, .f32⟩ : BufTy).Contents (Elt F) → (⟨S400000x1, .i32⟩ : BufTy).Contents (Elt F) → (⟨S400000x128, .f32⟩ : BufTy).Contents (Elt F) → (⟨S25000x128, .f32⟩ : BufTy).Contents (Elt F)) ]
theorem ops14_keeps : (ops14 : List (HloOp τ sig (Elt F))).Forall KeepsArgs :=
  ⟨keepsArgs_of_writes rfl (by decide), keepsArgs_of_writes rfl (by decide), keepsArgs_of_writes rfl (by decide), keepsArgs_of_writes rfl (by decide)⟩

abbrev ops15 : List (HloOp τ sig (Elt F)) :=
  [ StableHlo.binary main_v31 main_arg11 main_v45 ((fun l r => Host.dotGeneral dot_S400000x512_S512x256_S400000x256_1_0_0_1_n_n none l r) : (⟨S400000x512, .f32⟩ : BufTy).Contents (Elt F) → (⟨S512x256, .f32⟩ : BufTy).Contents (Elt F) → (⟨S400000x256, .f32⟩ : BufTy).Contents (Elt F)),
    StableHlo.unary main_arg12 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S400000x256 ![0, 1] bcast_S1x256_S400000x256_0_1 : (⟨S1x256, .f32⟩ : BufTy).Contents (Elt F) → (⟨S400000x256, .f32⟩ : BufTy).Contents (Elt F)) ]
theorem ops15_keeps : (ops15 : List (HloOp τ sig (Elt F))).Forall KeepsArgs :=
  ⟨keepsArgs_of_writes rfl (by decide), keepsArgs_of_writes rfl (by decide), keepsArgs_of_writes rfl (by decide)⟩

abbrev ops16 : List (HloOp τ sig (Elt F)) :=
  [ StableHlo.binary main_v45 main_v47 main_v48 (addf : (⟨S400000x256, .f32⟩ : BufTy).Contents (Elt F) → (⟨S400000x256, .f32⟩ : BufTy).Contents (Elt F) → (⟨S400000x256, .f32⟩ : BufTy).Contents (Elt F)) ]
theorem ops16_keeps : (ops16 : List (HloOp τ sig (Elt F))).Forall KeepsArgs :=
  keepsArgs_of_writes rfl (by decide)

abbrev ops17 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S400000x256, .f32⟩) (broadcastInDim S400000x256 ![] bcast_S_S400000x256),
    StableHlo.TRef.binary (.of main_v48 : StableHlo.TRef sig ⟨S400000x256, .f32⟩) (.of main_call6_v0 : StableHlo.TRef sig ⟨S400000x256, .f32⟩) (.of main_call6_v1 : StableHlo.TRef sig ⟨S400000x256, .i1⟩) (cmpf .oge),
    StableHlo.TRef.nullary (.of main_call6_cst_0 : StableHlo.TRef sig ⟨S_, .f32⟩) (constant S_ .f32 0x3C23D70A#32),
    StableHlo.TRef.unary (.of main_call6_cst_0 : StableHlo.TRef sig ⟨S_, .f32⟩) (.of main_call6_v2 : StableHlo.TRef sig ⟨S400000x256, .f32⟩) (broadcastInDim S400000x256 ![] bcast_S_S400000x256),
    StableHlo.TRef.binary (.of main_call6_v2 : StableHlo.TRef sig ⟨S400000x256, .f32⟩) (.of main_v48 : StableHlo.TRef sig ⟨S400000x256, .f32⟩) (.of main_call6_v3 : StableHlo.TRef sig ⟨S400000x256, .f32⟩) mulf,
    StableHlo.TRef.ternary (.of main_call6_v1 : StableHlo.TRef sig ⟨S400000x256, .i1⟩) (.of main_v48 : StableHlo.TRef sig ⟨S400000x256, .f32⟩) (.of main_call6_v3 : StableHlo.TRef sig ⟨S400000x256, .f32⟩) (.of main_v49 : StableHlo.TRef sig ⟨S400000x256, .f32⟩) select ]
theorem ops17_keeps : (ops17 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops18 : List (HloOp τ sig (Elt F)) :=
  [ StableHlo.binary main_v49 main_arg13 main_v50 ((fun l r => Host.dotGeneral dot_S400000x256_S256x128_S400000x128_1_0_0_1_n_n none l r) : (⟨S400000x256, .f32⟩ : BufTy).Contents (Elt F) → (⟨S256x128, .f32⟩ : BufTy).Contents (Elt F) → (⟨S400000x128, .f32⟩ : BufTy).Contents (Elt F)),
    StableHlo.unary main_arg14 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S400000x128 ![0, 1] bcast_S1x128_S400000x128_0_1 : (⟨S1x128, .f32⟩ : BufTy).Contents (Elt F) → (⟨S400000x128, .f32⟩ : BufTy).Contents (Elt F)),
    StableHlo.binary main_v50 main_v52 main_v53 (addf : (⟨S400000x128, .f32⟩ : BufTy).Contents (Elt F) → (⟨S400000x128, .f32⟩ : BufTy).Contents (Elt F) → (⟨S400000x128, .f32⟩ : BufTy).Contents (Elt F)) ]
theorem ops18_keeps : (ops18 : List (HloOp τ sig (Elt F))).Forall KeepsArgs :=
  ⟨keepsArgs_of_writes rfl (by decide), keepsArgs_of_writes rfl (by decide), keepsArgs_of_writes rfl (by decide), keepsArgs_of_writes rfl (by decide)⟩

abbrev ops19 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S400000x128, .f32⟩) (broadcastInDim S400000x128 ![] bcast_S_S400000x128),
    StableHlo.TRef.binary (.of main_v53 : StableHlo.TRef sig ⟨S400000x128, .f32⟩) (.of main_call7_v0 : StableHlo.TRef sig ⟨S400000x128, .f32⟩) (.of main_call7_v1 : StableHlo.TRef sig ⟨S400000x128, .i1⟩) (cmpf .oge),
    StableHlo.TRef.nullary (.of main_call7_cst_0 : StableHlo.TRef sig ⟨S_, .f32⟩) (constant S_ .f32 0x3C23D70A#32),
    StableHlo.TRef.unary (.of main_call7_cst_0 : StableHlo.TRef sig ⟨S_, .f32⟩) (.of main_call7_v2 : StableHlo.TRef sig ⟨S400000x128, .f32⟩) (broadcastInDim S400000x128 ![] bcast_S_S400000x128),
    StableHlo.TRef.binary (.of main_call7_v2 : StableHlo.TRef sig ⟨S400000x128, .f32⟩) (.of main_v53 : StableHlo.TRef sig ⟨S400000x128, .f32⟩) (.of main_call7_v3 : StableHlo.TRef sig ⟨S400000x128, .f32⟩) mulf,
    StableHlo.TRef.ternary (.of main_call7_v1 : StableHlo.TRef sig ⟨S400000x128, .i1⟩) (.of main_v53 : StableHlo.TRef sig ⟨S400000x128, .f32⟩) (.of main_call7_v3 : StableHlo.TRef sig ⟨S400000x128, .f32⟩) (.of main_v54 : StableHlo.TRef sig ⟨S400000x128, .f32⟩) select ]
theorem ops19_keeps : (ops19 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops20 : List (HloOp τ sig (Elt F)) :=
  [ StableHlo.nullary main_v55 (iotaInDim S8 32 0) ]
theorem ops20_keeps : (ops20 : List (HloOp τ sig (Elt F))).Forall KeepsArgs :=
  keepsArgs_of_writes rfl (by decide)

abbrev ops21 : List (HloOp τ sig (Elt F)) :=
  [ StableHlo.TRef.unary (.of main_arg5 : StableHlo.TRef sig ⟨S8, .i32⟩) (.of main_call8_v0 : StableHlo.TRef sig ⟨S1, .i32⟩) (extractStridedSlice S1 ![7] · slices_S8_S1_7),
    StableHlo.TRef.unary (.of main_arg5 : StableHlo.TRef sig ⟨S8, .i32⟩) (.of main_call8_v1 : StableHlo.TRef sig ⟨S7, .i32⟩) (extractStridedSlice S7 ![0] · slices_S8_S7_0),
    StableHlo.TRef.binary (.of main_call8_v0 : StableHlo.TRef sig ⟨S1, .i32⟩) (.of main_call8_v1 : StableHlo.TRef sig ⟨S7, .i32⟩) (.of main_v56 : StableHlo.TRef sig ⟨S8, .i32⟩) (fun a b => concatenate S8 0 [⟨S1, a⟩, ⟨S7, b⟩] concatenates_S1_S7_S8_d0) ]
theorem ops21_keeps : (ops21 : List (HloOp τ sig (Elt F))).Forall KeepsArgs :=
  ⟨keepsArgs_of_writes rfl (by decide), keepsArgs_of_writes rfl (by decide), keepsArgs_of_writes rfl (by decide)⟩

abbrev ops22 : List (HloOp τ sig (Elt F)) :=
  [ StableHlo.nullary main_c_10 (constantI S_ 32 0#32),
    StableHlo.unary main_c_10 main_v57 (broadcastInDim S1 ![] bcast_S_S1 : (⟨S_, .i32⟩ : BufTy).Contents (Elt F) → (⟨S1, .i32⟩ : BufTy).Contents (Elt F)),
    StableHlo.nullary main_c_11 (constantI S_ 32 0#32),
    StableHlo.ternary main_v56 main_v57 main_c_11 main_v58 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)) ]
theorem ops22_keeps : (ops22 : List (HloOp τ sig (Elt F))).Forall KeepsArgs :=
  ⟨keepsArgs_of_writes rfl (by decide), keepsArgs_of_writes rfl (by decide), keepsArgs_of_writes rfl (by decide), keepsArgs_of_writes rfl (by decide)⟩

abbrev ops23 : List (HloOp τ sig (Elt F)) :=
  [ StableHlo.TRef.nullary (.of main_call9_call0_c : StableHlo.TRef sig ⟨S_, .i32⟩) (constantI S_ 32 0#32),
    StableHlo.TRef.unary (.of main_call9_call0_c : StableHlo.TRef sig ⟨S_, .i32⟩) (.of main_call9_call0_v0 : StableHlo.TRef sig ⟨S_, .i32⟩) (broadcastInDim S_ ![] bcast_S_S_),
    StableHlo.TRef.binary (.of main_v58 : StableHlo.TRef sig ⟨S8, .i32⟩) (.of main_call9_call0_v0 : StableHlo.TRef sig ⟨S_, .i32⟩) (.of main_v59 : StableHlo.TRef sig ⟨S8, .i32⟩) (fun x v => Host.reduceWindow IntOp.addi ![8] ![1] ![7] ![0] x v reduceWindows_S8_S8_w8s1p7_0 h_S_) ]
theorem ops23_keeps : (ops23 : List (HloOp τ sig (Elt F))).Forall KeepsArgs :=
  ⟨keepsArgs_of_writes rfl (by decide), keepsArgs_of_writes rfl (by decide), keepsArgs_of_writes rfl (by decide)⟩

abbrev ops24 : List (HloOp τ sig (Elt F)) :=
  [ StableHlo.nullary main_c_12 (constantI S_ 32 0#32),
    StableHlo.unary main_c_12 main_v60 (broadcastInDim S25000 ![] bcast_S_S25000 : (⟨S_, .i32⟩ : BufTy).Contents (Elt F) → (⟨S25000, .i32⟩ : BufTy).Contents (Elt F)),
    StableHlo.nullary main_c_13 (constantI S_ 32 0#32),
    StableHlo.unary main_c_13 main_v61 (broadcastInDim S8 ![] bcast_S_S8 : (⟨S_, .i32⟩ : BufTy).Contents (Elt F) → (⟨S8, .i32⟩ : BufTy).Contents (Elt F)),
    StableHlo.binary main_v59 main_v61 main_v62 (cmpi .slt : (⟨S8, .i32⟩ : BufTy).Contents (Elt F) → (⟨S8, .i32⟩ : BufTy).Contents (Elt F) → (⟨S8, .i1⟩ : BufTy).Contents (Elt F)),
    StableHlo.nullary main_c_14 (constantI S_ 32 25000#32),
    StableHlo.unary main_c_14 main_v63 (broadcastInDim S8 ![] bcast_S_S8 : (⟨S_, .i32⟩ : BufTy).Contents (Elt F) → (⟨S8, .i32⟩ : BufTy).Contents (Elt F)),
    StableHlo.binary main_v59 main_v63 main_v64 (addi : (⟨S8, .i32⟩ : BufTy).Contents (Elt F) → (⟨S8, .i32⟩ : BufTy).Contents (Elt F) → (⟨S8, .i32⟩ : BufTy).Contents (Elt F)),
    StableHlo.ternary main_v62 main_v64 main_v59 main_v65 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v65 main_v66 (broadcastInDim S8x1 ![0] bcast_S8_S8x1_0 : (⟨S8, .i32⟩ : BufTy).Contents (Elt F) → (⟨S8x1, .i32⟩ : BufTy).Contents (Elt F)),
    StableHlo.nullary main_c_15 (constantI S_ 32 1#32),
    StableHlo.unary main_c_15 main_v67 (broadcastInDim S8 ![] bcast_S_S8 : (⟨S_, .i32⟩ : BufTy).Contents (Elt F) → (⟨S8, .i32⟩ : BufTy).Contents (Elt F)),
    StableHlo.ternary main_v60 main_v66 main_v67 main_v68 ((fun x i u => Host.scatter scatter_S25000_S8x1_S8_n_0_0_1 IntOp.addi x i u) : (⟨S25000, .i32⟩ : BufTy).Contents (Elt F) → (⟨S8x1, .i32⟩ : BufTy).Contents (Elt F) → (⟨S8, .i32⟩ : BufTy).Contents (Elt F) → (⟨S25000, .i32⟩ : BufTy).Contents (Elt F)) ]
theorem ops24_keeps : (ops24 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops25 : List (HloOp τ sig (Elt F)) :=
  [ StableHlo.TRef.nullary (.of main_call10_call0_c : StableHlo.TRef sig ⟨S_, .i32⟩) (constantI S_ 32 0#32),
    StableHlo.TRef.unary (.of main_call10_call0_c : StableHlo.TRef sig ⟨S_, .i32⟩) (.of main_call10_call0_v0 : StableHlo.TRef sig ⟨S_, .i32⟩) (broadcastInDim S_ ![] bcast_S_S_),
    StableHlo.TRef.binary (.of main_v68 : StableHlo.TRef sig ⟨S25000, .i32⟩) (.of main_call10_call0_v0 : StableHlo.TRef sig ⟨S_, .i32⟩) (.of main_v69 : StableHlo.TRef sig ⟨S25000, .i32⟩) (fun x v => Host.reduceWindow IntOp.addi ![25000] ![1] ![24999] ![0] x v reduceWindows_S25000_S25000_w25000s1p24999_0 h_S_) ]
theorem ops25_keeps : (ops25 : List (HloOp τ sig (Elt F))).Forall KeepsArgs :=
  ⟨keepsArgs_of_writes rfl (by decide), keepsArgs_of_writes rfl (by decide), keepsArgs_of_writes rfl (by decide)⟩

abbrev ops26 : List (HloOp τ sig (Elt F)) :=
  [ StableHlo.nullary main_c_16 (constantI S_ 32 1#32),
    StableHlo.unary main_c_16 main_v70 (broadcastInDim S25000 ![] bcast_S_S25000 : (⟨S_, .i32⟩ : BufTy).Contents (Elt F) → (⟨S25000, .i32⟩ : BufTy).Contents (Elt F)),
    StableHlo.binary main_v69 main_v70 main_v71 (subi : (⟨S25000, .i32⟩ : BufTy).Contents (Elt F) → (⟨S25000, .i32⟩ : BufTy).Contents (Elt F) → (⟨S25000, .i32⟩ : BufTy).Contents (Elt F)) ]
theorem ops26_keeps : (ops26 : List (HloOp τ sig (Elt F))).Forall KeepsArgs :=
  ⟨keepsArgs_of_writes rfl (by decide), keepsArgs_of_writes rfl (by decide), keepsArgs_of_writes rfl (by decide)⟩

abbrev ops27 : List (HloOp τ sig (Elt F)) :=
  [ StableHlo.TRef.nullary (.of main_call11_c : StableHlo.TRef sig ⟨S_, .i32⟩) (constantI S_ 32 0#32),
    StableHlo.TRef.unary (.of main_call11_c : StableHlo.TRef sig ⟨S_, .i32⟩) (.of main_call11_v0 : StableHlo.TRef sig ⟨S25000, .i32⟩) (broadcastInDim S25000 ![] bcast_S_S25000),
    StableHlo.TRef.binary (.of main_v71 : StableHlo.TRef sig ⟨S25000, .i32⟩) (.of main_call11_v0 : StableHlo.TRef sig ⟨S25000, .i32⟩) (.of main_call11_v1 : StableHlo.TRef sig ⟨S25000, .i1⟩) (cmpi .slt),
    StableHlo.TRef.nullary (.of main_call11_c_0 : StableHlo.TRef sig ⟨S_, .i32⟩) (constantI S_ 32 8#32),
    StableHlo.TRef.unary (.of main_call11_c_0 : StableHlo.TRef sig ⟨S_, .i32⟩) (.of main_call11_v2 : StableHlo.TRef sig ⟨S25000, .i32⟩) (broadcastInDim S25000 ![] bcast_S_S25000),
    StableHlo.TRef.binary (.of main_v71 : StableHlo.TRef sig ⟨S25000, .i32⟩) (.of main_call11_v2 : StableHlo.TRef sig ⟨S25000, .i32⟩) (.of main_call11_v3 : StableHlo.TRef sig ⟨S25000, .i32⟩) addi,
    StableHlo.TRef.ternary (.of main_call11_v1 : StableHlo.TRef sig ⟨S25000, .i1⟩) (.of main_call11_v3 : StableHlo.TRef sig ⟨S25000, .i32⟩) (.of main_v71 : StableHlo.TRef sig ⟨S25000, .i32⟩) (.of main_call11_v4 : StableHlo.TRef sig ⟨S25000, .i32⟩) select,
    StableHlo.TRef.unary (.of main_call11_v4 : StableHlo.TRef sig ⟨S25000, .i32⟩) (.of main_call11_v5 : StableHlo.TRef sig ⟨S25000x1, .i32⟩) (broadcastInDim S25000x1 ![0] bcast_S25000_S25000x1_0),
    StableHlo.TRef.nullary (.of main_call11_c_1 : StableHlo.TRef sig ⟨S1, .i32⟩) (constantI S1 32 7#32),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v6 : StableHlo.TRef sig ⟨S25000x1, .i32⟩) (broadcastInDim S25000x1 ![] bcast_S_S25000x1),
    StableHlo.TRef.binary (.of main_call11_v5 : StableHlo.TRef sig ⟨S25000x1, .i32⟩) (.of main_call11_v6 : StableHlo.TRef sig ⟨S25000x1, .i32⟩) (.of main_call11_v7 : StableHlo.TRef sig ⟨S25000x1, .i1⟩) (cmpi .sge),
    StableHlo.TRef.unary (.of main_call11_c_1 : StableHlo.TRef sig ⟨S1, .i32⟩) (.of main_call11_v8 : StableHlo.TRef sig ⟨S1x1, .i32⟩) (broadcastInDim S1x1 ![1] bcast_S1_S1x1_1),
    StableHlo.TRef.unary (.of main_call11_v8 : StableHlo.TRef sig ⟨S1x1, .i32⟩) (.of main_call11_v9 : StableHlo.TRef sig ⟨S25000x1, .i32⟩) (broadcastInDim S25000x1 ![0, 1] bcast_S1x1_S25000x1_0_1),
    StableHlo.TRef.binary (.of main_call11_v5 : StableHlo.TRef sig ⟨S25000x1, .i32⟩) (.of main_call11_v9 : StableHlo.TRef sig ⟨S25000x1, .i32⟩) (.of main_call11_v10 : StableHlo.TRef sig ⟨S25000x1, .i1⟩) (cmpi .sle),
    StableHlo.TRef.binary (.of main_call11_v7 : StableHlo.TRef sig ⟨S25000x1, .i1⟩) (.of main_call11_v10 : StableHlo.TRef sig ⟨S25000x1, .i1⟩) (.of main_call11_v11 : StableHlo.TRef sig ⟨S25000x1, .i1⟩) andi,
    StableHlo.TRef.nullary (.of main_call11_c_3 : StableHlo.TRef sig ⟨S_, .i1⟩) (constantI S_ 1 1#1),
    StableHlo.TRef.binary (.of main_call11_v11 : StableHlo.TRef sig ⟨S25000x1, .i1⟩) (.of main_call11_c_3 : StableHlo.TRef sig ⟨S_, .i1⟩) (.of main_call11_v12 : StableHlo.TRef sig ⟨S25000, .i1⟩) (fun x v => Host.reduce IntOp.andi x v reducesTo_S25000x1_S25000_d1 h_S_),
    StableHlo.TRef.binary (.of main_v55 : StableHlo.TRef sig ⟨S8, .i32⟩) (.of main_call11_v5 : StableHlo.TRef sig ⟨S25000x1, .i32⟩) (.of main_call11_v13 : StableHlo.TRef sig ⟨S25000, .i32⟩) (fun x i => Host.gather gather_S8_S25000x1_S25000_n_0_n_n_0_1_1 x i),
    StableHlo.TRef.nullary (.of main_call11_c_4 : StableHlo.TRef sig ⟨S_, .i32⟩) (constantI S_ 32 2147483648#32),
    StableHlo.TRef.unary (.of main_call11_c_4 : StableHlo.TRef sig ⟨S_, .i32⟩) (.of main_call11_v14 : StableHlo.TRef sig ⟨S25000, .i32⟩) (broadcastInDim S25000 ![] bcast_S_S25000),
    StableHlo.TRef.ternary (.of main_call11_v12 : StableHlo.TRef sig ⟨S25000, .i1⟩) (.of main_call11_v13 : StableHlo.TRef sig ⟨S25000, .i32⟩) (.of main_call11_v14 : StableHlo.TRef sig ⟨S25000, .i32⟩) (.of main_v72 : StableHlo.TRef sig ⟨S25000, .i32⟩) select ]
theorem ops27_keeps : (ops27 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops28 : List (HloOp τ sig (Elt F)) :=
  [ StableHlo.nullary main_v73 (iotaInDim S8 32 0) ]
theorem ops28_keeps : (ops28 : List (HloOp τ sig (Elt F))).Forall KeepsArgs :=
  keepsArgs_of_writes rfl (by decide)

abbrev ops29 : List (HloOp τ sig (Elt F)) :=
  [ StableHlo.TRef.unary (.of main_arg6 : StableHlo.TRef sig ⟨S8, .i32⟩) (.of main_call12_v0 : StableHlo.TRef sig ⟨S1, .i32⟩) (extractStridedSlice S1 ![7] · slices_S8_S1_7),
    StableHlo.TRef.unary (.of main_arg6 : StableHlo.TRef sig ⟨S8, .i32⟩) (.of main_call12_v1 : StableHlo.TRef sig ⟨S7, .i32⟩) (extractStridedSlice S7 ![0] · slices_S8_S7_0),
    StableHlo.TRef.binary (.of main_call12_v0 : StableHlo.TRef sig ⟨S1, .i32⟩) (.of main_call12_v1 : StableHlo.TRef sig ⟨S7, .i32⟩) (.of main_v74 : StableHlo.TRef sig ⟨S8, .i32⟩) (fun a b => concatenate S8 0 [⟨S1, a⟩, ⟨S7, b⟩] concatenates_S1_S7_S8_d0) ]
theorem ops29_keeps : (ops29 : List (HloOp τ sig (Elt F))).Forall KeepsArgs :=
  ⟨keepsArgs_of_writes rfl (by decide), keepsArgs_of_writes rfl (by decide), keepsArgs_of_writes rfl (by decide)⟩

abbrev ops30 : List (HloOp τ sig (Elt F)) :=
  [ StableHlo.nullary main_c_17 (constantI S_ 32 0#32),
    StableHlo.unary main_c_17 main_v75 (broadcastInDim S1 ![] bcast_S_S1 : (⟨S_, .i32⟩ : BufTy).Contents (Elt F) → (⟨S1, .i32⟩ : BufTy).Contents (Elt F)),
    StableHlo.nullary main_c_18 (constantI S_ 32 0#32),
    StableHlo.ternary main_v74 main_v75 main_c_18 main_v76 ((fun x i u => Host.scatter scatter_S8_S1_S__n_0_0_0 (fun _ b => b) x i u) : (⟨S8, .i32⟩ : BufTy).Contents (Elt F) → (⟨S1, .i32⟩ : BufTy).Contents (Elt F) → (⟨S_, .i32⟩ : BufTy).Contents (Elt F) → (⟨S8, .i32⟩ : BufTy).Contents (Elt F)) ]
theorem ops30_keeps : (ops30 : List (HloOp τ sig (Elt F))).Forall KeepsArgs :=
  ⟨keepsArgs_of_writes rfl (by decide), keepsArgs_of_writes rfl (by decide), keepsArgs_of_writes rfl (by decide), keepsArgs_of_writes rfl (by decide)⟩

abbrev ops31 : List (HloOp τ sig (Elt F)) :=
  [ StableHlo.TRef.nullary (.of main_call13_call0_c : StableHlo.TRef sig ⟨S_, .i32⟩) (constantI S_ 32 0#32),
    StableHlo.TRef.unary (.of main_call13_call0_c : StableHlo.TRef sig ⟨S_, .i32⟩) (.of main_call13_call0_v0 : StableHlo.TRef sig ⟨S_, .i32⟩) (broadcastInDim S_ ![] bcast_S_S_),
    StableHlo.TRef.binary (.of main_v76 : StableHlo.TRef sig ⟨S8, .i32⟩) (.of main_call13_call0_v0 : StableHlo.TRef sig ⟨S_, .i32⟩) (.of main_v77 : StableHlo.TRef sig ⟨S8, .i32⟩) (fun x v => Host.reduceWindow IntOp.addi ![8] ![1] ![7] ![0] x v reduceWindows_S8_S8_w8s1p7_0 h_S_) ]
theorem ops31_keeps : (ops31 : List (HloOp τ sig (Elt F))).Forall KeepsArgs :=
  ⟨keepsArgs_of_writes rfl (by decide), keepsArgs_of_writes rfl (by decide), keepsArgs_of_writes rfl (by decide)⟩

abbrev ops32 : List (HloOp τ sig (Elt F)) :=
  [ StableHlo.nullary main_c_19 (constantI S_ 32 0#32),
    StableHlo.unary main_c_19 main_v78 (broadcastInDim S400000 ![] bcast_S_S400000 : (⟨S_, .i32⟩ : BufTy).Contents (Elt F) → (⟨S400000, .i32⟩ : BufTy).Contents (Elt F)),
    StableHlo.nullary main_c_20 (constantI S_ 32 0#32),
    StableHlo.unary main_c_20 main_v79 (broadcastInDim S8 ![] bcast_S_S8 : (⟨S_, .i32⟩ : BufTy).Contents (Elt F) → (⟨S8, .i32⟩ : BufTy).Contents (Elt F)),
    StableHlo.binary main_v77 main_v79 main_v80 (cmpi .slt : (⟨S8, .i32⟩ : BufTy).Contents (Elt F) → (⟨S8, .i32⟩ : BufTy).Contents (Elt F) → (⟨S8, .i1⟩ : BufTy).Contents (Elt F)),
    StableHlo.nullary main_c_21 (constantI S_ 32 400000#32),
    StableHlo.unary main_c_21 main_v81 (broadcastInDim S8 ![] bcast_S_S8 : (⟨S_, .i32⟩ : BufTy).Contents (Elt F) → (⟨S8, .i32⟩ : BufTy).Contents (Elt F)),
    StableHlo.binary main_v77 main_v81 main_v82 (addi : (⟨S8, .i32⟩ : BufTy).Contents (Elt F) → (⟨S8, .i32⟩ : BufTy).Contents (Elt F) → (⟨S8, .i32⟩ : BufTy).Contents (Elt F)),
    StableHlo.ternary main_v80 main_v82 main_v77 main_v83 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v83 main_v84 (broadcastInDim S8x1 ![0] bcast_S8_S8x1_0 : (⟨S8, .i32⟩ : BufTy).Contents (Elt F) → (⟨S8x1, .i32⟩ : BufTy).Contents (Elt F)),
    StableHlo.nullary main_c_22 (constantI S_ 32 1#32),
    StableHlo.unary main_c_22 main_v85 (broadcastInDim S8 ![] bcast_S_S8 : (⟨S_, .i32⟩ : BufTy).Contents (Elt F) → (⟨S8, .i32⟩ : BufTy).Contents (Elt F)),
    StableHlo.ternary main_v78 main_v84 main_v85 main_v86 ((fun x i u => Host.scatter scatter_S400000_S8x1_S8_n_0_0_1 IntOp.addi x i u) : (⟨S400000, .i32⟩ : BufTy).Contents (Elt F) → (⟨S8x1, .i32⟩ : BufTy).Contents (Elt F) → (⟨S8, .i32⟩ : BufTy).Contents (Elt F) → (⟨S400000, .i32⟩ : BufTy).Contents (Elt F)) ]
theorem ops32_keeps : (ops32 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops33 : List (HloOp τ sig (Elt F)) :=
  [ StableHlo.TRef.nullary (.of main_call14_call0_c : StableHlo.TRef sig ⟨S_, .i32⟩) (constantI S_ 32 0#32),
    StableHlo.TRef.unary (.of main_call14_call0_c : StableHlo.TRef sig ⟨S_, .i32⟩) (.of main_call14_call0_v0 : StableHlo.TRef sig ⟨S_, .i32⟩) (broadcastInDim S_ ![] bcast_S_S_),
    StableHlo.TRef.binary (.of main_v86 : StableHlo.TRef sig ⟨S400000, .i32⟩) (.of main_call14_call0_v0 : StableHlo.TRef sig ⟨S_, .i32⟩) (.of main_v87 : StableHlo.TRef sig ⟨S400000, .i32⟩) (fun x v => Host.reduceWindow IntOp.addi ![400000] ![1] ![399999] ![0] x v reduceWindows_S400000_S400000_w400000s1p399999_0 h_S_) ]
theorem ops33_keeps : (ops33 : List (HloOp τ sig (Elt F))).Forall KeepsArgs :=
  ⟨keepsArgs_of_writes rfl (by decide), keepsArgs_of_writes rfl (by decide), keepsArgs_of_writes rfl (by decide)⟩

abbrev ops34 : List (HloOp τ sig (Elt F)) :=
  [ StableHlo.nullary main_c_23 (constantI S_ 32 1#32),
    StableHlo.unary main_c_23 main_v88 (broadcastInDim S400000 ![] bcast_S_S400000 : (⟨S_, .i32⟩ : BufTy).Contents (Elt F) → (⟨S400000, .i32⟩ : BufTy).Contents (Elt F)),
    StableHlo.binary main_v87 main_v88 main_v89 (subi : (⟨S400000, .i32⟩ : BufTy).Contents (Elt F) → (⟨S400000, .i32⟩ : BufTy).Contents (Elt F) → (⟨S400000, .i32⟩ : BufTy).Contents (Elt F)) ]
theorem ops34_keeps : (ops34 : List (HloOp τ sig (Elt F))).Forall KeepsArgs :=
  ⟨keepsArgs_of_writes rfl (by decide), keepsArgs_of_writes rfl (by decide), keepsArgs_of_writes rfl (by decide)⟩

abbrev ops35 : List (HloOp τ sig (Elt F)) :=
  [ StableHlo.TRef.nullary (.of main_call15_c : StableHlo.TRef sig ⟨S_, .i32⟩) (constantI S_ 32 0#32),
    StableHlo.TRef.unary (.of main_call15_c : StableHlo.TRef sig ⟨S_, .i32⟩) (.of main_call15_v0 : StableHlo.TRef sig ⟨S400000, .i32⟩) (broadcastInDim S400000 ![] bcast_S_S400000),
    StableHlo.TRef.binary (.of main_v89 : StableHlo.TRef sig ⟨S400000, .i32⟩) (.of main_call15_v0 : StableHlo.TRef sig ⟨S400000, .i32⟩) (.of main_call15_v1 : StableHlo.TRef sig ⟨S400000, .i1⟩) (cmpi .slt),
    StableHlo.TRef.nullary (.of main_call15_c_0 : StableHlo.TRef sig ⟨S_, .i32⟩) (constantI S_ 32 8#32),
    StableHlo.TRef.unary (.of main_call15_c_0 : StableHlo.TRef sig ⟨S_, .i32⟩) (.of main_call15_v2 : StableHlo.TRef sig ⟨S400000, .i32⟩) (broadcastInDim S400000 ![] bcast_S_S400000),
    StableHlo.TRef.binary (.of main_v89 : StableHlo.TRef sig ⟨S400000, .i32⟩) (.of main_call15_v2 : StableHlo.TRef sig ⟨S400000, .i32⟩) (.of main_call15_v3 : StableHlo.TRef sig ⟨S400000, .i32⟩) addi,
    StableHlo.TRef.ternary (.of main_call15_v1 : StableHlo.TRef sig ⟨S400000, .i1⟩) (.of main_call15_v3 : StableHlo.TRef sig ⟨S400000, .i32⟩) (.of main_v89 : StableHlo.TRef sig ⟨S400000, .i32⟩) (.of main_call15_v4 : StableHlo.TRef sig ⟨S400000, .i32⟩) select,
    StableHlo.TRef.unary (.of main_call15_v4 : StableHlo.TRef sig ⟨S400000, .i32⟩) (.of main_call15_v5 : StableHlo.TRef sig ⟨S400000x1, .i32⟩) (broadcastInDim S400000x1 ![0] bcast_S400000_S400000x1_0),
    StableHlo.TRef.nullary (.of main_call15_c_1 : StableHlo.TRef sig ⟨S1, .i32⟩) (constantI S1 32 7#32),
    StableHlo.TRef.nullary (.of main_call15_c_2 : StableHlo.TRef sig ⟨S_, .i32⟩) (constantI S_ 32 0#32),
    StableHlo.TRef.unary (.of main_call15_c_2 : StableHlo.TRef sig ⟨S_, .i32⟩) (.of main_call15_v6 : StableHlo.TRef sig ⟨S400000x1, .i32⟩) (broadcastInDim S400000x1 ![] bcast_S_S400000x1),
    StableHlo.TRef.binary (.of main_call15_v5 : StableHlo.TRef sig ⟨S400000x1, .i32⟩) (.of main_call15_v6 : StableHlo.TRef sig ⟨S400000x1, .i32⟩) (.of main_call15_v7 : StableHlo.TRef sig ⟨S400000x1, .i1⟩) (cmpi .sge),
    StableHlo.TRef.unary (.of main_call15_c_1 : StableHlo.TRef sig ⟨S1, .i32⟩) (.of main_call15_v8 : StableHlo.TRef sig ⟨S1x1, .i32⟩) (broadcastInDim S1x1 ![1] bcast_S1_S1x1_1),
    StableHlo.TRef.unary (.of main_call15_v8 : StableHlo.TRef sig ⟨S1x1, .i32⟩) (.of main_call15_v9 : StableHlo.TRef sig ⟨S400000x1, .i32⟩) (broadcastInDim S400000x1 ![0, 1] bcast_S1x1_S400000x1_0_1),
    StableHlo.TRef.binary (.of main_call15_v5 : StableHlo.TRef sig ⟨S400000x1, .i32⟩) (.of main_call15_v9 : StableHlo.TRef sig ⟨S400000x1, .i32⟩) (.of main_call15_v10 : StableHlo.TRef sig ⟨S400000x1, .i1⟩) (cmpi .sle),
    StableHlo.TRef.binary (.of main_call15_v7 : StableHlo.TRef sig ⟨S400000x1, .i1⟩) (.of main_call15_v10 : StableHlo.TRef sig ⟨S400000x1, .i1⟩) (.of main_call15_v11 : StableHlo.TRef sig ⟨S400000x1, .i1⟩) andi,
    StableHlo.TRef.nullary (.of main_call15_c_3 : StableHlo.TRef sig ⟨S_, .i1⟩) (constantI S_ 1 1#1),
    StableHlo.TRef.binary (.of main_call15_v11 : StableHlo.TRef sig ⟨S400000x1, .i1⟩) (.of main_call15_c_3 : StableHlo.TRef sig ⟨S_, .i1⟩) (.of main_call15_v12 : StableHlo.TRef sig ⟨S400000, .i1⟩) (fun x v => Host.reduce IntOp.andi x v reducesTo_S400000x1_S400000_d1 h_S_),
    StableHlo.TRef.binary (.of main_v73 : StableHlo.TRef sig ⟨S8, .i32⟩) (.of main_call15_v5 : StableHlo.TRef sig ⟨S400000x1, .i32⟩) (.of main_call15_v13 : StableHlo.TRef sig ⟨S400000, .i32⟩) (fun x i => Host.gather gather_S8_S400000x1_S400000_n_0_n_n_0_1_1 x i),
    StableHlo.TRef.nullary (.of main_call15_c_4 : StableHlo.TRef sig ⟨S_, .i32⟩) (constantI S_ 32 2147483648#32),
    StableHlo.TRef.unary (.of main_call15_c_4 : StableHlo.TRef sig ⟨S_, .i32⟩) (.of main_call15_v14 : StableHlo.TRef sig ⟨S400000, .i32⟩) (broadcastInDim S400000 ![] bcast_S_S400000),
    StableHlo.TRef.ternary (.of main_call15_v12 : StableHlo.TRef sig ⟨S400000, .i1⟩) (.of main_call15_v13 : StableHlo.TRef sig ⟨S400000, .i32⟩) (.of main_call15_v14 : StableHlo.TRef sig ⟨S400000, .i32⟩) (.of main_v90 : StableHlo.TRef sig ⟨S400000, .i32⟩) select ]
theorem ops35_keeps : (ops35 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops36 : List (HloOp τ sig (Elt F)) :=
  [ StableHlo.nullary main_cst_24 (constant S_ .f32 0x00000000#32),
    StableHlo.unary main_cst_24 main_v91 (broadcastInDim S8x128 ![] bcast_S_S8x128 : (⟨S_, .f32⟩ : BufTy).Contents (Elt F) → (⟨S8x128, .f32⟩ : BufTy).Contents (Elt F)),
    StableHlo.unary main_v72 main_v92 (broadcastInDim S25000x1 ![0] bcast_S25000_S25000x1_0 : (⟨S25000, .i32⟩ : BufTy).Contents (Elt F) → (⟨S25000x1, .i32⟩ : BufTy).Contents (Elt F)) ]
theorem ops36_keeps : (ops36 : List (HloOp τ sig (Elt F))).Forall KeepsArgs :=
  ⟨keepsArgs_of_writes rfl (by decide), keepsArgs_of_writes rfl (by decide), keepsArgs_of_writes rfl (by decide)⟩

abbrev ops37 : List (HloOp τ sig (Elt F)) :=
  [ StableHlo.ternary main_v91 main_v92 main_arg0 main_v93 ((fun x i u => Host.scatterAdd scatter_S8x128_S25000x1_S25000x128_1_0_0_1 x i u) : (⟨S8x128, .f32⟩ : BufTy).Contents (Elt F) → (⟨S25000x1, .i32⟩ : BufTy).Contents (Elt F) → (⟨S25000x128, .f32⟩ : BufTy).Contents (Elt F) → (⟨S8x128, .f32⟩ : BufTy).Contents (Elt F)) ]
theorem ops37_keeps : (ops37 : List (HloOp τ sig (Elt F))).Forall KeepsArgs :=
  keepsArgs_of_writes rfl (by decide)

abbrev ops38 : List (HloOp τ sig (Elt F)) :=
  [ StableHlo.nullary main_cst_25 (constant S_ .f32 0x00000000#32),
    StableHlo.unary main_cst_25 main_v94 (broadcastInDim S8x128 ![] bcast_S_S8x128 : (⟨S_, .f32⟩ : BufTy).Contents (Elt F) → (⟨S8x128, .f32⟩ : BufTy).Contents (Elt F)),
    StableHlo.unary main_v90 main_v95 (broadcastInDim S400000x1 ![0] bcast_S400000_S400000x1_0 : (⟨S400000, .i32⟩ : BufTy).Contents (Elt F) → (⟨S400000x1, .i32⟩ : BufTy).Contents (Elt F)),
    StableHlo.ternary main_v94 main_v95 main_arg1 main_v96 ((fun x i u => Host.scatterAdd scatter_S8x128_S400000x1_S400000x128_1_0_0_1 x i u) : (⟨S8x128, .f32⟩ : BufTy).Contents (Elt F) → (⟨S400000x1, .i32⟩ : BufTy).Contents (Elt F) → (⟨S400000x128, .f32⟩ : BufTy).Contents (Elt F) → (⟨S8x128, .f32⟩ : BufTy).Contents (Elt F)) ]
theorem ops38_keeps : (ops38 : List (HloOp τ sig (Elt F))).Forall KeepsArgs :=
  ⟨keepsArgs_of_writes rfl (by decide), keepsArgs_of_writes rfl (by decide), keepsArgs_of_writes rfl (by decide), keepsArgs_of_writes rfl (by decide)⟩

abbrev ops39 : List (HloOp τ sig (Elt F)) :=
  [ StableHlo.binary main_arg2 main_arg19 main_v97 ((fun l r => Host.dotGeneral dot_S8x128_S128x128_S8x128_1_0_0_1_n_n none l r) : (⟨S8x128, .f32⟩ : BufTy).Contents (Elt F) → (⟨S128x128, .f32⟩ : BufTy).Contents (Elt F) → (⟨S8x128, .f32⟩ : BufTy).Contents (Elt F)),
    StableHlo.unary main_arg20 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S8x128 ![0, 1] bcast_S1x128_S8x128_0_1 : (⟨S1x128, .f32⟩ : BufTy).Contents (Elt F) → (⟨S8x128, .f32⟩ : BufTy).Contents (Elt F)),
    StableHlo.binary main_v97 main_v99 main_v100 (addf : (⟨S8x128, .f32⟩ : BufTy).Contents (Elt F) → (⟨S8x128, .f32⟩ : BufTy).Contents (Elt F) → (⟨S8x128, .f32⟩ : BufTy).Contents (Elt F)) ]
theorem ops39_keeps : (ops39 : List (HloOp τ sig (Elt F))).Forall KeepsArgs :=
  ⟨keepsArgs_of_writes rfl (by decide), keepsArgs_of_writes rfl (by decide), keepsArgs_of_writes rfl (by decide), keepsArgs_of_writes rfl (by decide)⟩

abbrev ops40 : List (HloOp τ sig (Elt F)) :=
  [ StableHlo.TRef.nullary (.of main_call16_cst : StableHlo.TRef sig ⟨S_, .f32⟩) (constant S_ .f32 0x00000000#32),
    StableHlo.TRef.unary (.of main_call16_cst : StableHlo.TRef sig ⟨S_, .f32⟩) (.of main_call16_v0 : StableHlo.TRef sig ⟨S8x128, .f32⟩) (broadcastInDim S8x128 ![] bcast_S_S8x128),
    StableHlo.TRef.binary (.of main_v100 : StableHlo.TRef sig ⟨S8x128, .f32⟩) (.of main_call16_v0 : StableHlo.TRef sig ⟨S8x128, .f32⟩) (.of main_call16_v1 : StableHlo.TRef sig ⟨S8x128, .i1⟩) (cmpf .oge),
    StableHlo.TRef.nullary (.of main_call16_cst_0 : StableHlo.TRef sig ⟨S_, .f32⟩) (constant S_ .f32 0x3C23D70A#32),
    StableHlo.TRef.unary (.of main_call16_cst_0 : StableHlo.TRef sig ⟨S_, .f32⟩) (.of main_call16_v2 : StableHlo.TRef sig ⟨S8x128, .f32⟩) (broadcastInDim S8x128 ![] bcast_S_S8x128),
    StableHlo.TRef.binary (.of main_call16_v2 : StableHlo.TRef sig ⟨S8x128, .f32⟩) (.of main_v100 : StableHlo.TRef sig ⟨S8x128, .f32⟩) (.of main_call16_v3 : StableHlo.TRef sig ⟨S8x128, .f32⟩) mulf,
    StableHlo.TRef.ternary (.of main_call16_v1 : StableHlo.TRef sig ⟨S8x128, .i1⟩) (.of main_v100 : StableHlo.TRef sig ⟨S8x128, .f32⟩) (.of main_call16_v3 : StableHlo.TRef sig ⟨S8x128, .f32⟩) (.of main_v101 : StableHlo.TRef sig ⟨S8x128, .f32⟩) select ]
theorem ops40_keeps : (ops40 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops41 : List (HloOp τ sig (Elt F)) :=
  [ StableHlo.binary main_v93 main_arg15 main_v102 ((fun l r => Host.dotGeneral dot_S8x128_S128x128_S8x128_1_0_0_1_n_n none l r) : (⟨S8x128, .f32⟩ : BufTy).Contents (Elt F) → (⟨S128x128, .f32⟩ : BufTy).Contents (Elt F) → (⟨S8x128, .f32⟩ : BufTy).Contents (Elt F)),
    StableHlo.unary main_arg16 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S8x128 ![0, 1] bcast_S1x128_S8x128_0_1 : (⟨S1x128, .f32⟩ : BufTy).Contents (Elt F) → (⟨S8x128, .f32⟩ : BufTy).Contents (Elt F)),
    StableHlo.binary main_v102 main_v104 main_v105 (addf : (⟨S8x128, .f32⟩ : BufTy).Contents (Elt F) → (⟨S8x128, .f32⟩ : BufTy).Contents (Elt F) → (⟨S8x128, .f32⟩ : BufTy).Contents (Elt F)) ]
theorem ops41_keeps : (ops41 : List (HloOp τ sig (Elt F))).Forall KeepsArgs :=
  ⟨keepsArgs_of_writes rfl (by decide), keepsArgs_of_writes rfl (by decide), keepsArgs_of_writes rfl (by decide), keepsArgs_of_writes rfl (by decide)⟩

abbrev ops42 : List (HloOp τ sig (Elt F)) :=
  [ StableHlo.TRef.nullary (.of main_call17_cst : StableHlo.TRef sig ⟨S_, .f32⟩) (constant S_ .f32 0x00000000#32),
    StableHlo.TRef.unary (.of main_call17_cst : StableHlo.TRef sig ⟨S_, .f32⟩) (.of main_call17_v0 : StableHlo.TRef sig ⟨S8x128, .f32⟩) (broadcastInDim S8x128 ![] bcast_S_S8x128),
    StableHlo.TRef.binary (.of main_v105 : StableHlo.TRef sig ⟨S8x128, .f32⟩) (.of main_call17_v0 : StableHlo.TRef sig ⟨S8x128, .f32⟩) (.of main_call17_v1 : StableHlo.TRef sig ⟨S8x128, .i1⟩) (cmpf .oge),
    StableHlo.TRef.nullary (.of main_call17_cst_0 : StableHlo.TRef sig ⟨S_, .f32⟩) (constant S_ .f32 0x3C23D70A#32),
    StableHlo.TRef.unary (.of main_call17_cst_0 : StableHlo.TRef sig ⟨S_, .f32⟩) (.of main_call17_v2 : StableHlo.TRef sig ⟨S8x128, .f32⟩) (broadcastInDim S8x128 ![] bcast_S_S8x128),
    StableHlo.TRef.binary (.of main_call17_v2 : StableHlo.TRef sig ⟨S8x128, .f32⟩) (.of main_v105 : StableHlo.TRef sig ⟨S8x128, .f32⟩) (.of main_call17_v3 : StableHlo.TRef sig ⟨S8x128, .f32⟩) mulf,
    StableHlo.TRef.ternary (.of main_call17_v1 : StableHlo.TRef sig ⟨S8x128, .i1⟩) (.of main_v105 : StableHlo.TRef sig ⟨S8x128, .f32⟩) (.of main_call17_v3 : StableHlo.TRef sig ⟨S8x128, .f32⟩) (.of main_v106 : StableHlo.TRef sig ⟨S8x128, .f32⟩) select ]
theorem ops42_keeps : (ops42 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops43 : List (HloOp τ sig (Elt F)) :=
  [ StableHlo.binary main_v96 main_arg17 main_v107 ((fun l r => Host.dotGeneral dot_S8x128_S128x128_S8x128_1_0_0_1_n_n none l r) : (⟨S8x128, .f32⟩ : BufTy).Contents (Elt F) → (⟨S128x128, .f32⟩ : BufTy).Contents (Elt F) → (⟨S8x128, .f32⟩ : BufTy).Contents (Elt F)),
    StableHlo.unary main_arg18 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S8x128 ![0, 1] bcast_S1x128_S8x128_0_1 : (⟨S1x128, .f32⟩ : BufTy).Contents (Elt F) → (⟨S8x128, .f32⟩ : BufTy).Contents (Elt F)),
    StableHlo.binary main_v107 main_v109 main_v110 (addf : (⟨S8x128, .f32⟩ : BufTy).Contents (Elt F) → (⟨S8x128, .f32⟩ : BufTy).Contents (Elt F) → (⟨S8x128, .f32⟩ : BufTy).Contents (Elt F)) ]
theorem ops43_keeps : (ops43 : List (HloOp τ sig (Elt F))).Forall KeepsArgs :=
  ⟨keepsArgs_of_writes rfl (by decide), keepsArgs_of_writes rfl (by decide), keepsArgs_of_writes rfl (by decide), keepsArgs_of_writes rfl (by decide)⟩

abbrev ops44 : List (HloOp τ sig (Elt F)) :=
  [ StableHlo.TRef.nullary (.of main_call18_cst : StableHlo.TRef sig ⟨S_, .f32⟩) (constant S_ .f32 0x00000000#32),
    StableHlo.TRef.unary (.of main_call18_cst : StableHlo.TRef sig ⟨S_, .f32⟩) (.of main_call18_v0 : StableHlo.TRef sig ⟨S8x128, .f32⟩) (broadcastInDim S8x128 ![] bcast_S_S8x128),
    StableHlo.TRef.binary (.of main_v110 : StableHlo.TRef sig ⟨S8x128, .f32⟩) (.of main_call18_v0 : StableHlo.TRef sig ⟨S8x128, .f32⟩) (.of main_call18_v1 : StableHlo.TRef sig ⟨S8x128, .i1⟩) (cmpf .oge),
    StableHlo.TRef.nullary (.of main_call18_cst_0 : StableHlo.TRef sig ⟨S_, .f32⟩) (constant S_ .f32 0x3C23D70A#32),
    StableHlo.TRef.unary (.of main_call18_cst_0 : StableHlo.TRef sig ⟨S_, .f32⟩) (.of main_call18_v2 : StableHlo.TRef sig ⟨S8x128, .f32⟩) (broadcastInDim S8x128 ![] bcast_S_S8x128),
    StableHlo.TRef.binary (.of main_call18_v2 : StableHlo.TRef sig ⟨S8x128, .f32⟩) (.of main_v110 : StableHlo.TRef sig ⟨S8x128, .f32⟩) (.of main_call18_v3 : StableHlo.TRef sig ⟨S8x128, .f32⟩) mulf,
    StableHlo.TRef.ternary (.of main_call18_v1 : StableHlo.TRef sig ⟨S8x128, .i1⟩) (.of main_v110 : StableHlo.TRef sig ⟨S8x128, .f32⟩) (.of main_call18_v3 : StableHlo.TRef sig ⟨S8x128, .f32⟩) (.of main_v111 : StableHlo.TRef sig ⟨S8x128, .f32⟩) select ]
theorem ops44_keeps : (ops44 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev ops45 : List (HloOp τ sig (Elt F)) :=
  [ StableHlo.nary ![main_v101, main_v106, main_v111] main_v112 (fun u => concatenate S8x384 1 [⟨S8x128, u 0⟩, ⟨S8x128, u 1⟩, ⟨S8x128, u 2⟩] concatenates_S8x128_S8x128_S8x128_S8x384_d1),
    StableHlo.binary main_v112 main_arg21 main_v113 ((fun l r => Host.dotGeneral dot_S8x384_S384x128_S8x128_1_0_0_1_n_n none l r) : (⟨S8x384, .f32⟩ : BufTy).Contents (Elt F) → (⟨S384x128, .f32⟩ : BufTy).Contents (Elt F) → (⟨S8x128, .f32⟩ : BufTy).Contents (Elt F)),
    StableHlo.unary main_arg22 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S8x128 ![0, 1] bcast_S1x128_S8x128_0_1 : (⟨S1x128, .f32⟩ : BufTy).Contents (Elt F) → (⟨S8x128, .f32⟩ : BufTy).Contents (Elt F)),
    StableHlo.binary main_v113 main_v115 main_v116 (addf : (⟨S8x128, .f32⟩ : BufTy).Contents (Elt F) → (⟨S8x128, .f32⟩ : BufTy).Contents (Elt F) → (⟨S8x128, .f32⟩ : BufTy).Contents (Elt F)) ]
theorem ops45_keeps : (ops45 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide)⟩

abbrev ops46 : List (HloOp τ sig (Elt F)) :=
  [ StableHlo.TRef.nullary (.of main_call19_cst : StableHlo.TRef sig ⟨S_, .f32⟩) (constant S_ .f32 0x00000000#32),
    StableHlo.TRef.unary (.of main_call19_cst : StableHlo.TRef sig ⟨S_, .f32⟩) (.of main_call19_v0 : StableHlo.TRef sig ⟨S8x128, .f32⟩) (broadcastInDim S8x128 ![] bcast_S_S8x128),
    StableHlo.TRef.binary (.of main_v116 : StableHlo.TRef sig ⟨S8x128, .f32⟩) (.of main_call19_v0 : StableHlo.TRef sig ⟨S8x128, .f32⟩) (.of main_call19_v1 : StableHlo.TRef sig ⟨S8x128, .i1⟩) (cmpf .oge),
    StableHlo.TRef.nullary (.of main_call19_cst_0 : StableHlo.TRef sig ⟨S_, .f32⟩) (constant S_ .f32 0x3C23D70A#32),
    StableHlo.TRef.unary (.of main_call19_cst_0 : StableHlo.TRef sig ⟨S_, .f32⟩) (.of main_call19_v2 : StableHlo.TRef sig ⟨S8x128, .f32⟩) (broadcastInDim S8x128 ![] bcast_S_S8x128),
    StableHlo.TRef.binary (.of main_call19_v2 : StableHlo.TRef sig ⟨S8x128, .f32⟩) (.of main_v116 : StableHlo.TRef sig ⟨S8x128, .f32⟩) (.of main_call19_v3 : StableHlo.TRef sig ⟨S8x128, .f32⟩) mulf,
    StableHlo.TRef.ternary (.of main_call19_v1 : StableHlo.TRef sig ⟨S8x128, .i1⟩) (.of main_v116 : StableHlo.TRef sig ⟨S8x128, .f32⟩) (.of main_call19_v3 : StableHlo.TRef sig ⟨S8x128, .f32⟩) (.of main_v117 : StableHlo.TRef sig ⟨S8x128, .f32⟩) select ]
theorem ops46_keeps : (ops46 : List (HloOp τ sig (Elt F))).Forall KeepsArgs :=
  ⟨keepsArgs_of_writes rfl (by decide), keepsArgs_of_writes rfl (by decide), keepsArgs_of_writes rfl (by decide), keepsArgs_of_writes rfl (by decide), keepsArgs_of_writes rfl (by decide), keepsArgs_of_writes rfl (by decide), keepsArgs_of_writes rfl (by decide)⟩

abbrev opss : List (List (HloOp τ sig (Elt F))) :=
  [ops0, ops1, ops2, ops3, ops4, ops5, ops6, ops7, ops8, ops9, ops10, ops11, ops12, ops13, ops14, ops15, ops16, ops17, ops18, ops19, ops20, ops21, ops22, ops23, ops24, ops25, ops26, ops27, ops28, ops29, ops30, ops31, ops32, ops33, ops34, ops35, ops36, ops37, ops38, ops39, ops40, ops41, ops42, ops43, ops44, ops45, ops46]

abbrev ops : List (HloOp τ sig (Elt F)) := opss.flatten

/-- Every operation touches TensorCore buffers only: each is built by one of the constructors of host operations. -/
theorem opss_sub : (opss : List (List (HloOp τ sig (Elt F)))).Forall fun l => l.Forall fun op => op.bufs ⊆ StableHlo.tcRefs τ sig :=
  ⟨⟨StableHlo.unary_bufs_sub .., StableHlo.unary_bufs_sub .., StableHlo.binary_bufs_sub ..⟩,
   ⟨StableHlo.nullary_bufs_sub .., StableHlo.unary_bufs_sub .., StableHlo.nullary_bufs_sub .., StableHlo.ternary_bufs_sub ..⟩,
   ⟨StableHlo.nullary_bufs_sub .., StableHlo.unary_bufs_sub .., StableHlo.binary_bufs_sub ..⟩,
   ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩,
   ⟨StableHlo.nullary_bufs_sub .., StableHlo.unary_bufs_sub .., StableHlo.binary_bufs_sub ..⟩,
   ⟨StableHlo.nullary_bufs_sub .., StableHlo.unary_bufs_sub .., StableHlo.binary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩,
   StableHlo.nary_bufs_sub ..,
   ⟨StableHlo.binary_bufs_sub .., StableHlo.unary_bufs_sub .., StableHlo.unary_bufs_sub .., StableHlo.binary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩,
   ⟨StableHlo.binary_bufs_sub .., StableHlo.unary_bufs_sub .., StableHlo.unary_bufs_sub .., StableHlo.binary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩,
   ⟨StableHlo.nullary_bufs_sub .., StableHlo.unary_bufs_sub .., StableHlo.unary_bufs_sub .., StableHlo.ternary_bufs_sub ..⟩,
   ⟨StableHlo.binary_bufs_sub .., StableHlo.unary_bufs_sub .., StableHlo.unary_bufs_sub ..⟩,
   StableHlo.binary_bufs_sub ..,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩,
   ⟨StableHlo.binary_bufs_sub .., StableHlo.unary_bufs_sub .., StableHlo.unary_bufs_sub .., StableHlo.binary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩,
   StableHlo.nullary_bufs_sub ..,
   ⟨StableHlo.unary_bufs_sub .., StableHlo.unary_bufs_sub .., StableHlo.binary_bufs_sub ..⟩,
   ⟨StableHlo.nullary_bufs_sub .., StableHlo.unary_bufs_sub .., StableHlo.nullary_bufs_sub .., StableHlo.ternary_bufs_sub ..⟩,
   ⟨StableHlo.nullary_bufs_sub .., StableHlo.unary_bufs_sub .., StableHlo.binary_bufs_sub ..⟩,
   ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩,
   ⟨StableHlo.nullary_bufs_sub .., StableHlo.unary_bufs_sub .., StableHlo.binary_bufs_sub ..⟩,
   ⟨StableHlo.nullary_bufs_sub .., StableHlo.unary_bufs_sub .., StableHlo.binary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩,
   StableHlo.nullary_bufs_sub ..,
   ⟨StableHlo.unary_bufs_sub .., StableHlo.unary_bufs_sub .., StableHlo.binary_bufs_sub ..⟩,
   ⟨StableHlo.nullary_bufs_sub .., StableHlo.unary_bufs_sub .., StableHlo.nullary_bufs_sub .., StableHlo.ternary_bufs_sub ..⟩,
   ⟨StableHlo.nullary_bufs_sub .., StableHlo.unary_bufs_sub .., StableHlo.binary_bufs_sub ..⟩,
   ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩,
   ⟨StableHlo.nullary_bufs_sub .., StableHlo.unary_bufs_sub .., StableHlo.binary_bufs_sub ..⟩,
   ⟨StableHlo.nullary_bufs_sub .., StableHlo.unary_bufs_sub .., StableHlo.binary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩,
   ⟨StableHlo.nullary_bufs_sub .., StableHlo.unary_bufs_sub .., StableHlo.unary_bufs_sub ..⟩,
   StableHlo.ternary_bufs_sub ..,
   ⟨StableHlo.nullary_bufs_sub .., StableHlo.unary_bufs_sub .., StableHlo.unary_bufs_sub .., StableHlo.ternary_bufs_sub ..⟩,
   ⟨StableHlo.binary_bufs_sub .., StableHlo.unary_bufs_sub .., StableHlo.unary_bufs_sub .., StableHlo.binary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩,
   ⟨StableHlo.binary_bufs_sub .., StableHlo.unary_bufs_sub .., StableHlo.unary_bufs_sub .., StableHlo.binary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩,
   ⟨StableHlo.binary_bufs_sub .., StableHlo.unary_bufs_sub .., StableHlo.unary_bufs_sub .., StableHlo.binary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩,
   ⟨StableHlo.nary_bufs_sub .., StableHlo.binary_bufs_sub .., StableHlo.unary_bufs_sub .., StableHlo.unary_bufs_sub .., StableHlo.binary_bufs_sub ..⟩,
   ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩⟩

/-- Every operation determines what it writes. -/
theorem opss_fresh : (opss : List (List (HloOp τ sig (Elt F)))).Forall fun l => l.Forall fun op => op.fresh = ∅ := by
  simp only [List.Forall]
  repeat' apply And.intro
  all_goals rfl

theorem opss_keeps : (opss : List (List (HloOp τ sig (Elt F)))).Forall fun l => l.Forall KeepsArgs :=
  ⟨ops0_keeps, ops1_keeps, ops2_keeps, ops3_keeps, ops4_keeps, ops5_keeps, ops6_keeps, ops7_keeps, ops8_keeps, ops9_keeps, ops10_keeps, ops11_keeps, ops12_keeps, ops13_keeps, ops14_keeps, ops15_keeps, ops16_keeps, ops17_keeps, ops18_keeps, ops19_keeps, ops20_keeps, ops21_keeps, ops22_keeps, ops23_keeps, ops24_keeps, ops25_keeps, ops26_keeps, ops27_keeps, ops28_keeps, ops29_keeps, ops30_keeps, ops31_keeps, ops32_keeps, ops33_keeps, ops34_keeps, ops35_keeps, ops36_keeps, ops37_keeps, ops38_keeps, ops39_keeps, ops40_keeps, ops41_keeps, ops42_keeps, ops43_keeps, ops44_keeps, ops45_keeps, ops46_keeps⟩

end Cert.ReferenceIdeal.Hand

end
-- ==== Proof.RefRun.lean ====
import proofs.«414085_j14620068675791_1_alg».proof.Proof.RefOps
import Idealize.ShloMosaic.Lib.StableHlo.Run
import Idealize.ShloMosaic.Lib.Pipeline.Regions

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Stretches run one after the other are their concatenation run as one line. -/
theorem chain_map_seq {nD : Nat} {τ : Topo} {sig : RefSig} {Val : EltTy → Type} {Λ : Labels} (l : List (List (HloOp τ sig Val))) :
    Pipeline.chain (l.map fun o => (StableHlo.seq o : Prog (TpuEff nD τ sig Val Λ .tc) PUnit)) = StableHlo.seq l.flatten := by
  induction l with
  | nil => rfl
  | cons a l ih => rw [List.map_cons, Pipeline.chain_cons, ih, List.flatten_cons, StableHlo.seq_append]

/-- A property of every operation of every stretch holds of every operation of the whole line. -/
theorem forall_flatten {α : Type} {P : α → Prop} {ls : List (List α)} (h : ls.Forall fun l => l.Forall P) :
    ∀ x ∈ ls.flatten, P x := by
  intro x hx
  obtain ⟨l, hl, hxl⟩ := List.mem_flatten.1 hx
  exact List.forall_iff_forall_mem.1 (List.forall_iff_forall_mem.1 h l hl) x hxl

theorem main_part0_chain (c : Dev nD) : main_part0 (F := F) c = (Pipeline.chainK
  [ StableHlo.seq ops0,
    StableHlo.seq ops1,
    StableHlo.seq ops2,
    StableHlo.seq ops3,
    StableHlo.seq ops4,
    StableHlo.seq ops5,
    StableHlo.seq ops6,
    StableHlo.seq ops7,
    StableHlo.seq ops8,
    StableHlo.seq ops9,
    StableHlo.seq ops10,
    StableHlo.seq ops11,
    StableHlo.seq ops12,
    StableHlo.seq ops13,
    StableHlo.seq ops14 ]
  (StableHlo.seq ops15) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK
  [ StableHlo.seq ops16,
    StableHlo.seq ops17,
    StableHlo.seq ops18,
    StableHlo.seq ops19,
    StableHlo.seq ops20,
    StableHlo.seq ops21,
    StableHlo.seq ops22,
    StableHlo.seq ops23,
    StableHlo.seq ops24,
    StableHlo.seq ops25,
    StableHlo.seq ops26,
    StableHlo.seq ops27,
    StableHlo.seq ops28,
    StableHlo.seq ops29,
    StableHlo.seq ops30,
    StableHlo.seq ops31,
    StableHlo.seq ops32,
    StableHlo.seq ops33,
    StableHlo.seq ops34,
    StableHlo.seq ops35 ]
  (StableHlo.seq ops36) : Prog (TpuEff nD τ sig (Elt F) (Pipeline.Sig Λ₀ (Fin 0) fun p => (pcfgs (F := F) p).Adm) .tc) PUnit) := by
  chain_rfl

theorem main_part2_chain (c : Dev nD) : main_part2 (F := F) c = (Pipeline.chain
  [ StableHlo.seq ops37,
    StableHlo.seq ops38,
    StableHlo.seq ops39,
    StableHlo.seq ops40,
    StableHlo.seq ops41,
    StableHlo.seq ops42,
    StableHlo.seq ops43,
    StableHlo.seq ops44,
    StableHlo.seq ops45,
    StableHlo.seq ops46 ] : Prog (TpuEff nD τ sig (Elt F) (Pipeline.Sig Λ₀ (Fin 0) fun p => (pcfgs (F := F) p).Adm) .tc) PUnit) := by
  chain_rfl

theorem main_chain (c : Dev nD) : main (F := F) c
    = (Pipeline.chain ((opss (F := F)).map fun o => (StableHlo.seq o : Prog (TpuEff nD τ sig (Elt F) (Pipeline.Sig Λ₀ (Fin 0) fun p => (pcfgs (F := F) p).Adm) .tc) PUnit)) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- @main is the one straight line of its operations: each window is its stretches in order, the called functions unfolded at their calls. -/
theorem main_eq (c : Dev nD) : main (F := F) c = StableHlo.seq ops :=
  (main_chain c).trans (chain_map_seq _)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  List.forall_iff_forall_mem.2 (forall_flatten opss_sub)

theorem ops_fresh : ∀ op ∈ (ops : List (HloOp τ sig (Elt F))), op.fresh = ∅ := forall_flatten opss_fresh

theorem ops_keeps : ∀ op ∈ (ops : List (HloOp τ sig (Elt F))), KeepsArgs op := forall_flatten opss_keeps

/-- A straight line of operations that touch TensorCore buffers only and determine what they write terminates, every buffer
    ending at the fold of the operations' results over its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ (fun _ => ops_fresh)

/-- No operation writes an argument, so an argument is after the whole line as it was. -/
theorem kept (V : Valuation τ sig (Elt F)) (r : Ref sig .tc) (hr : r.idx.val < 23) :
    StableHlo.after (ops (F := F)) V (Proc.devRef .tc r) = V (Proc.devRef .tc r) :=
  StableHlo.after_of_forall_not_mem ops V fun op hop => ops_keeps op hop r hr

end Cert.ReferenceIdeal.Hand

end
-- ==== Proof.Spec.lean ====
import Idealize.ShloMosaic.PureOps.Ideal

noncomputable section

namespace Cert.Spec

open Idealize.ShloMosaic

def slope : EReal := Ideal.ofBits .f32 0x3C23D70A#32
def lrelu (x : EReal) : EReal := if (0 : EReal) ≤ x then x else slope * x
def layer {K N : ℕ} (x : Fin K → EReal) (W : Fin K → Fin N → EReal) (b : Fin N → EReal) (n : Fin N) : EReal :=
  lrelu ((∑ k : Fin K, x k * W k n) + b n)
def mlp2 (x : Fin 512 → EReal) (W0 : Fin 512 → Fin 256 → EReal) (b0 : Fin 256 → EReal)
    (W1 : Fin 256 → Fin 128 → EReal) (b1 : Fin 128 → EReal) (n : Fin 128) : EReal :=
  layer (fun k => layer x W0 b0 k) W1 b1 n

end Cert.Spec

end
-- ==== Proof.ValDefs.lean ====
import proofs.«414085_j14620068675791_1_alg».proof.Proof.KIDefs
import proofs.«414085_j14620068675791_1_alg».proof.Proof.Spec
import Idealize.ShloMosaic.Lib.ValueIdx

noncomputable section

namespace Cert.Proof.Val

open Idealize.ShloMosaic Idealize.ShloMosaic.TcCoe Idealize.SL.Sem
open Idealize.ShloMosaic.ValueIdx

abbrev KM := (ℓ : Loc Cert.KernelIdeal.nD Cert.KernelIdeal.τ Cert.KernelIdeal.sig) → Buf (Elt Ideal) ℓ
def mlpAt (x : (⟨2, ![400000, 512]⟩ : Shape).Idx → EReal) (W0 : (⟨2, ![512, 256]⟩ : Shape).Idx → EReal) (b0 : (⟨1, ![256]⟩ : Shape).Idx → EReal)
    (W1 : (⟨2, ![256, 128]⟩ : Shape).Idx → EReal) (b1 : (⟨1, ![128]⟩ : Shape).Idx → EReal) (e : Fin 400000) (n : Fin 128) : EReal :=
  Cert.Spec.mlp2 (fun j => x (ix2 e j)) (fun k q => W0 (ix2 k q)) (fun q => b0 (ix1 q)) (fun k q => W1 (ix2 k q)) (fun q => b1 (ix1 q)) n

section K
open Cert.KernelIdeal
variable (m : KM) (c : Dev Cert.KernelIdeal.nD)

def concatK : S400000x512.Idx → EReal := Cert.KernelIdeal.Hand.V m c main_v20
def msgsK : S400000x128.Idx → EReal := (Cert.KernelIdeal.Hand.dats m 0 c).arrAt 9 cfg0.N
def edgesK : S400000x128.Idx → EReal := (Cert.KernelIdeal.Hand.dats m 0 c).arrAt 10 cfg0.N
def nodesK : S25000x128.Idx → EReal := Pipeline.afterTail₀ cfgs (Cert.KernelIdeal.Hand.dats m) 0 (Cert.KernelIdeal.Hand.V0 m) Cert.KernelIdeal.Hand.postOpss c main_v32
def globK : S8x128.Idx → EReal := Pipeline.afterTail₀ cfgs (Cert.KernelIdeal.Hand.dats m) 0 (Cert.KernelIdeal.Hand.V0 m) Cert.KernelIdeal.Hand.postOpss c main_v95
def Wn0K : S512x256.Idx → EReal := m ((c.tc : Thread nD τ).loc main_arg7)
def bn0K : S256.Idx → EReal := m ((c.tc : Thread nD τ).loc main_arg8)
def Wn1K : S256x128.Idx → EReal := m ((c.tc : Thread nD τ).loc main_arg9)
def bn1K : S128.Idx → EReal := m ((c.tc : Thread nD τ).loc main_arg10)
def We0K : S512x256.Idx → EReal := m ((c.tc : Thread nD τ).loc main_arg11)
def be0K : S256.Idx → EReal := m ((c.tc : Thread nD τ).loc main_arg12)
def We1K : S256x128.Idx → EReal := m ((c.tc : Thread nD τ).loc main_arg13)
def be1K : S128.Idx → EReal := m ((c.tc : Thread nD τ).loc main_arg14)
end K

end Cert.Proof.Val

end
-- ==== Proof.RefLayer.lean ====
import proofs.«414085_j14620068675791_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.Proof.RefLayer

open Idealize.ShloMosaic Idealize.ShloMosaic.ValueIdx
open scoped BigOperators

-- Keeping x where 0 ≤ x and taking the slope times x elsewhere is the leaky rectifier of x.
theorem lrelu_select (x : Ideal .f32) :
    Scalar.select (Ideal.cmp .oge x (Ideal.ofBits .f32 0x00000000#32)) x (Ideal.ofBits .f32 0x3C23D70A#32 * x) = Cert.Spec.lrelu x := by
  rw [Ideal.ofBits_zero_f32]
  unfold Cert.Spec.lrelu Cert.Spec.slope Ideal.cmp
  by_cases h : (0 : EReal) ≤ x
  · rw [if_pos h]; simp only [h, decide_true, BitVec.ofBool_true]; exact select_one _ _
  · rw [if_neg h]; simp only [h, decide_false, BitVec.ofBool_false]; exact select_zero _ _

def leaky {F : FTy → Type} [FloatOps F] {s : Shape} (h0 : (⟨0, ![]⟩ : Shape).BroadcastsInDim s (![] : Fin 0 → Fin s.rank)) (X : FVec F s .f32) : FVec F s .f32 :=
  select (cmpf .oge X (broadcastInDim s ![] h0 (constant ⟨0, ![]⟩ .f32 0x00000000#32))) X
    (mulf (broadcastInDim s ![] h0 (constant ⟨0, ![]⟩ .f32 0x3C23D70A#32)) X)

theorem leaky_apply {s : Shape} (h0 : (⟨0, ![]⟩ : Shape).BroadcastsInDim s (![] : Fin 0 → Fin s.rank)) (X : FVec Ideal s .f32) (i : s.Idx) :
    leaky h0 X i = Cert.Spec.lrelu (X i) := by
  unfold leaky
  rw [select_apply, cmpf_apply, mulf_apply, broadcastInDim_scalar_apply, broadcastInDim_scalar_apply, constant_apply,
    constant_apply, Ideal.cmpf_def]
  exact lrelu_select _

-- A contraction of an M x K array with a K x N array along the shared axis sums, at (a, b), over the shared coordinate.
theorem sum_contr {M K N : Nat} (A : (⟨2, ![M, K]⟩ : Shape).Idx → EReal) (B : (⟨2, ![K, N]⟩ : Shape).Idx → EReal) (a : Fin M) (b : Fin N) :
    ∑ q, A ((DotDims.plain M K N).lhsIdx (ix2 a b) q) * B ((DotDims.plain M K N).rhsIdx (ix2 a b) q) = ∑ c : Fin K, A (ix2 a c) * B (ix2 c b) := by
  rw [← Equiv.sum_comp (contrEquiv1 (DotDims.plain M K N) K rfl rfl).symm]
  refine Finset.sum_congr rfl fun c _ => ?_
  have c2 := contrEquiv1_symm_val (DotDims.plain M K N) K rfl rfl c
  rw [show (DotDims.plain M K N).lhsIdx (ix2 a b) ((contrEquiv1 _ K rfl rfl).symm c) = ix2 a c from Shape.idx_ext₂ rfl c2,
    show (DotDims.plain M K N).rhsIdx (ix2 a b) ((contrEquiv1 _ K rfl rfl).symm c) = ix2 c b from Shape.idx_ext₂ c2 rfl]

theorem dot_apply {M K N : Nat} {φ₁ φ₂ : FTy} (prec : Option ContractPrecision) (A : FVec Ideal ⟨2, ![M, K]⟩ φ₁) (B : FVec Ideal ⟨2, ![K, N]⟩ φ₂)
    (a : Fin M) (b : Fin N) : Host.dotGeneral (DotDims.plain M K N) prec A B (ix2 a b) = ∑ c : Fin K, A (ix2 a c) * B (ix2 c b) :=
  (Ideal.dotGeneral_apply _ prec _ A B (ix2 a b)).trans (sum_contr A B a b)

theorem matmul0_apply {M K N : Nat} {φ₁ φ₂ : FTy} (A : FVec Ideal ⟨2, ![M, K]⟩ φ₁) (B : FVec Ideal ⟨2, ![K, N]⟩ φ₂) (a : Fin M) (b : Fin N) :
    matmul (DotDims.plain M K N) none A B (constant ⟨2, ![M, N]⟩ .f32 0x00000000#32) (ix2 a b) = ∑ c : Fin K, A (ix2 a c) * B (ix2 c b) :=
  (Ideal.matmul_constant_zero_apply _ none A B (ix2 a b)).trans (sum_contr A B a b)

-- A bias copied to a one-row matrix and then down every row reads, at (e, n), its entry n.
theorem bias_apply {M N : Nat} {α : Type}
    (h1 : (⟨1, ![N]⟩ : Shape).BroadcastsInDim ⟨2, ![1, N]⟩ ![1])
    (h2 : (⟨2, ![1, N]⟩ : Shape).BroadcastsInDim ⟨2, ![M, N]⟩ ![0, 1])
    (b : (⟨1, ![N]⟩ : Shape).Idx → α) (e : Fin M) (n : Fin N) :
    broadcastInDim ⟨2, ![M, N]⟩ ![0, 1] h2 (broadcastInDim ⟨2, ![1, N]⟩ ![1] h1 b) (ix2 e n) = b (ix1 n) := by
  rw [broadcastInDim_apply ![0, 1] h2 _ (ix2 e n) (ix2 (0 : Fin 1) n) (by
    intro a
    match a with
    | ⟨0, _⟩ => rfl
    | ⟨1, _⟩ =>
      show n.val = if N = 1 then 0 else n.val
      split_ifs with hN
      · have := n.isLt; omega
      · rfl)]
  rw [broadcastInDim_apply ![1] h1 b (ix2 (0 : Fin 1) n) (ix1 n) (by
    intro a
    match a with
    | ⟨0, _⟩ =>
      show n.val = if N = 1 then 0 else n.val
      split_ifs with hN
      · have := n.isLt; omega
      · rfl)]

theorem layer_apply {M K N : Nat}
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ (![] : Fin 0 → Fin 2))
    (x : FVec Ideal ⟨2, ![M, K]⟩ .f32) (W : FVec Ideal ⟨2, ![K, N]⟩ .f32) (b : FVec Ideal ⟨1, ![N]⟩ .f32) (e : Fin M) (n : Fin N) :
    leaky h0 (addf (Host.dotGeneral (DotDims.plain M K N) none x W)
        (broadcastInDim ⟨2, ![M, N]⟩ ![0, 1] h2 (broadcastInDim ⟨2, ![1, N]⟩ ![1] h1 b))) (ix2 e n)
      = Cert.Spec.layer (fun k => x (ix2 e k)) (fun k q => W (ix2 k q)) (fun q => b (ix1 q)) n := by
  rw [leaky_apply, addf_apply, dot_apply, bias_apply]
  rfl

end Cert.Proof.RefLayer

end
-- ==== Proof.KIPayload.lean ====
import proofs.«414085_j14620068675791_1_alg».proof.Proof.ValDefs
import proofs.«414085_j14620068675791_1_alg».proof.Proof.RefLayer
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Proof.KIValue

open Idealize.ShloMosaic Idealize.ShloMosaic.ValueIdx
open Cert.KernelIdeal Cert.KernelIdeal.Gen Cert.Proof.RefLayer
open scoped BigOperators

def actV {s : Shape} (v : FVec Ideal s .f32) : FVec Ideal s .f32 :=
  select (cmpf .oge v (broadcast s (Scalar.ofBits (F := Ideal) .f32 0x00000000#32))) v
    (mulf (broadcast s (Scalar.ofBits (F := Ideal) .f32 0x3C23D70A#32)) v)

-- One layer of a row block at (p, q): the product into a zero accumulator sums over the inner positions, the one-row bias adds its entry q.
theorem layer_at {M K N : Nat} (hb : (⟨2, ![1, N]⟩ : Shape).Broadcasts ⟨2, ![M, N]⟩)
    (x : FVec Ideal ⟨2, ![M, K]⟩ .bf16) (W : FVec Ideal ⟨2, ![K, N]⟩ .bf16) (b : FVec Ideal ⟨2, ![1, N]⟩ .f32) (p : Fin M) (q : Fin N) :
    actV (addf (matmul (DotDims.plain M K N) none x W (constant ⟨2, ![M, N]⟩ .f32 0x00000000#32)) (broadcastTo ⟨2, ![M, N]⟩ b hb)) (ix2 p q)
      = Spec.layer (fun k => x (ix2 p k)) (fun k q => W (ix2 k q)) (fun q => b (ix2 (0 : Fin 1) q)) q := by
  refine (lrelu_select _).trans (congrArg Spec.lrelu ?_)
  rw [addf_apply, matmul0_apply, broadcastTo_1b_ab_apply]

theorem pay3_eq (x : FVec Ideal S3200x512 .bf16) (W0 : FVec Ideal S512x256 .bf16) (b0 : FVec Ideal S1x256 .f32) (W1 : FVec Ideal S256x128 .bf16) (b1 : FVec Ideal S1x128 .f32) :
    k0_pay3 (F := Ideal) x W0 b0 W1 b1 = actV (addf (matmul dot_S3200x256_S256x128_S3200x128_1_0_0_1_n_n none (truncf .bf16 (actV (addf (matmul dot_S3200x512_S512x256_S3200x256_1_0_0_1_n_n none x W0 (constant S3200x256 .f32 0x00000000#32)) (broadcastTo S3200x256 b0 broadcasts_S1x256_S3200x256))) bitsLt_bf16_f32) W1 (constant S3200x128 .f32 0x00000000#32)) (broadcastTo S3200x128 b1 broadcasts_S1x128_S3200x128)) := by
  unfold k0_pay3 k0_pay2
  simp only [shapeCast_self]
  rfl

-- The stored value at (p, q) is the two-layer perceptron of row p of the block.
theorem pay3_at (x : Vec Ideal S3200x512 .bf16) (W0 : Vec Ideal S512x256 .bf16) (b0 : Vec Ideal S1x256 .f32) (W1 : Vec Ideal S256x128 .bf16) (b1 : Vec Ideal S1x128 .f32) (p : Fin 3200) (q : Fin 128) :
    Cert.KernelIdeal.Gen.k0_pay3 x W0 b0 W1 b1 (ix2 p q) = Cert.Spec.mlp2 (fun j => x (ix2 p j)) (fun k n => W0 (ix2 k n)) (fun n => b0 (ix2 0 n)) (fun k n => W1 (ix2 k n)) (fun n => b1 (ix2 0 n)) q := by
  rw [pay3_eq]
  refine (layer_at _ _ W1 b1 p q).trans ?_
  unfold Spec.mlp2
  exact congrArg (fun f => Spec.layer f (fun k q => W1 (ix2 k q)) (fun q => b1 (ix2 (0 : Fin 1) q)) q)
    (funext fun k => layer_at _ x W0 b0 p k)

-- The second output's value is the same term at the other weights.
theorem pay1_at (x : Vec Ideal S3200x512 .bf16) (W0 : Vec Ideal S512x256 .bf16) (b0 : Vec Ideal S1x256 .f32) (W1 : Vec Ideal S256x128 .bf16) (b1 : Vec Ideal S1x128 .f32) (p : Fin 3200) (q : Fin 128) :
    Cert.KernelIdeal.Gen.k0_pay1 (Cert.KernelIdeal.Gen.k0_pay4 x W0 b0) W1 b1 (ix2 p q) = Cert.Spec.mlp2 (fun j => x (ix2 p j)) (fun k n => W0 (ix2 k n)) (fun n => b0 (ix2 0 n)) (fun k n => W1 (ix2 k n)) (fun n => b1 (ix2 0 n)) q :=
  pay3_at x W0 b0 W1 b1 p q

end Cert.Proof.KIValue

end
-- ==== Proof.KIWindows.lean ====
import proofs.«414085_j14620068675791_1_alg».proof.Proof.ValDefs
import Idealize.ShloMosaic.Lib.ValueLayout

set_option maxRecDepth 16384

noncomputable section

namespace Cert.Proof.KIValue

open Cert.KernelIdeal Cert.KernelIdeal.Gen Cert.KernelIdeal.Hand
open Idealize.ShloMosaic Idealize.ShloMosaic.TcCoe Idealize.SL.Sem
open Idealize.ShloMosaic.ValueIdx
open Cert.Proof.Val

section AnyFloat

variable {F : FTy → Type} [FloatOps F]
variable (m : (ℓ : Loc nD τ sig) → Buf (Elt F) ℓ)

abbrev pre9 : List (List (HloOp τ sig (Elt F))) := [hostOps0, hostOps0_1, hostOps0_2, hostOps0_3, hostOps0_4, hostOps0_5, hostOps0_6, hostOps0_7, hostOps0_8]

def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

-- A singleton holds the argument r only if its element is r.
theorem avoids_of_not_mem {y : Ref sig .tc} (h : y ∉ argRefs) :
    ∀ r ∈ argRefs, Proc.devRef (τ := τ) .tc r ∉ ({Proc.devRef .tc y} : Finset (DevRef τ sig)) :=
  fun r hr hm => h ((Proc.devRef_injective _ (Finset.mem_singleton.mp hm)) ▸ hr)

theorem hostOps0_avoids : (hostOps0 : List (HloOp τ sig (Elt F))).Forall fun op => ∀ r ∈ argRefs, Proc.devRef .tc r ∉ op.writes := by
  repeat' apply And.intro
  all_goals exact avoids_of_not_mem (by decide)
theorem hostOps0_1_avoids : (hostOps0_1 : List (HloOp τ sig (Elt F))).Forall fun op => ∀ r ∈ argRefs, Proc.devRef .tc r ∉ op.writes := by
  repeat' apply And.intro
  all_goals exact avoids_of_not_mem (by decide)
theorem hostOps0_2_avoids : (hostOps0_2 : List (HloOp τ sig (Elt F))).Forall fun op => ∀ r ∈ argRefs, Proc.devRef .tc r ∉ op.writes := by
  repeat' apply And.intro
  all_goals exact avoids_of_not_mem (by decide)
theorem hostOps0_3_avoids : (hostOps0_3 : List (HloOp τ sig (Elt F))).Forall fun op => ∀ r ∈ argRefs, Proc.devRef .tc r ∉ op.writes := by
  repeat' apply And.intro
  all_goals exact avoids_of_not_mem (by decide)
theorem hostOps0_4_avoids : (hostOps0_4 : List (HloOp τ sig (Elt F))).Forall fun op => ∀ r ∈ argRefs, Proc.devRef .tc r ∉ op.writes := by
  repeat' apply And.intro
  all_goals exact avoids_of_not_mem (by decide)
theorem hostOps0_5_avoids : (hostOps0_5 : List (HloOp τ sig (Elt F))).Forall fun op => ∀ r ∈ argRefs, Proc.devRef .tc r ∉ op.writes := by
  repeat' apply And.intro
  all_goals exact avoids_of_not_mem (by decide)
theorem hostOps0_6_avoids : (hostOps0_6 : List (HloOp τ sig (Elt F))).Forall fun op => ∀ r ∈ argRefs, Proc.devRef .tc r ∉ op.writes := by
  repeat' apply And.intro
  all_goals exact avoids_of_not_mem (by decide)
theorem hostOps0_7_avoids : (hostOps0_7 : List (HloOp τ sig (Elt F))).Forall fun op => ∀ r ∈ argRefs, Proc.devRef .tc r ∉ op.writes := by
  repeat' apply And.intro
  all_goals exact avoids_of_not_mem (by decide)
theorem hostOps0_8_avoids : (hostOps0_8 : List (HloOp τ sig (Elt F))).Forall fun op => ∀ r ∈ argRefs, Proc.devRef .tc r ∉ op.writes := by
  repeat' apply And.intro
  all_goals exact avoids_of_not_mem (by decide)

def Wpre (c : Dev nD) : Valuation τ sig (Elt F) := StableHlo.after (List.flatten pre9) (fun b => m (c, b))

-- No operation of the nine stretches writes an argument.
theorem Wpre_arg (c : Dev nD) (r : Ref sig .tc) (hr : r ∈ argRefs) :
    Wpre m c (Proc.devRef .tc r) = m ((c.tc : Thread nD τ).loc r) :=
  StableHlo.after_of_forall_not_mem _ _ fun op hop => by
    obtain ⟨ops, hops, hop'⟩ := List.mem_flatten.mp hop
    exact (List.forall_iff_forall_mem.mp ((List.forall_iff_forall_mem.mp (show (pre9 (F := F)).Forall _ from
      ⟨hostOps0_avoids, hostOps0_1_avoids, hostOps0_2_avoids, hostOps0_3_avoids, hostOps0_4_avoids, hostOps0_5_avoids, hostOps0_6_avoids, hostOps0_7_avoids, hostOps0_8_avoids⟩)) ops hops)) op hop' r hr

theorem V0_split (c : Dev nD) : V0 m c = StableHlo.after hostOps0_9 (Wpre m c) := by
  show StableHlo.after (List.flatten (pre9 ++ [hostOps0_9])) (fun b => m (c, b)) = _
  rw [List.flatten_append, List.flatten_singleton, StableHlo.after_append]
  rfl

end AnyFloat

section AtIdeal

variable (m : KM) (c : Dev Cert.KernelIdeal.nD)

-- The last stretch rounds each weight argument to the narrow format, which changes no extended real.
theorem win1_eq : (V m c main_v21 : S512x256.Idx → EReal) = Wn0K m c := by
  show V0 m c (Proc.devRef .tc main_v21) = _
  rw [V0_split]
  dsimp only [hostOps0_9]
  after_results
  exact Wpre_arg m c main_arg7 (by decide)
theorem win3_eq : (V m c main_v22 : S256x128.Idx → EReal) = Wn1K m c := by
  show V0 m c (Proc.devRef .tc main_v22) = _
  rw [V0_split]
  dsimp only [hostOps0_9]
  after_results
  exact Wpre_arg m c main_arg9 (by decide)
theorem win5_eq : (V m c main_v23 : S512x256.Idx → EReal) = We0K m c := by
  show V0 m c (Proc.devRef .tc main_v23) = _
  rw [V0_split]
  dsimp only [hostOps0_9]
  after_results
  exact Wpre_arg m c main_arg11 (by decide)
theorem win7_eq : (V m c main_v24 : S256x128.Idx → EReal) = We1K m c := by
  show V0 m c (Proc.devRef .tc main_v24) = _
  rw [V0_split]
  dsimp only [hostOps0_9]
  after_results
  exact Wpre_arg m c main_arg13 (by decide)

-- It reshapes each bias argument from [n] to [1, n]; the one row reads the argument.
theorem win2_at (q : Fin 256) : (V m c main_v25 : S1x256.Idx → EReal) (ix2 (0 : Fin 1) q) = bn0K m c (ix1 q) := by
  refine (congrFun (?_ : (V m c main_v25 : S1x256.Idx → EReal) = shapeCast S1x256 (bn0K m c) shapeCasts_S256_S1x256) _).trans (shapeCast_a_1a_apply _ _ 0 q)
  show V0 m c (Proc.devRef .tc main_v25) = _
  rw [V0_split]
  dsimp only [hostOps0_9]
  after_results
  exact congrArg (fun x => shapeCast S1x256 x shapeCasts_S256_S1x256) (Wpre_arg m c main_arg8 (by decide))
theorem win4_at (q : Fin 128) : (V m c main_v26 : S1x128.Idx → EReal) (ix2 (0 : Fin 1) q) = bn1K m c (ix1 q) := by
  refine (congrFun (?_ : (V m c main_v26 : S1x128.Idx → EReal) = shapeCast S1x128 (bn1K m c) shapeCasts_S128_S1x128) _).trans (shapeCast_a_1a_apply _ _ 0 q)
  show V0 m c (Proc.devRef .tc main_v26) = _
  rw [V0_split]
  dsimp only [hostOps0_9]
  after_results
  exact congrArg (fun x => shapeCast S1x128 x shapeCasts_S128_S1x128) (Wpre_arg m c main_arg10 (by decide))
theorem win6_at (q : Fin 256) : (V m c main_v27 : S1x256.Idx → EReal) (ix2 (0 : Fin 1) q) = be0K m c (ix1 q) := by
  refine (congrFun (?_ : (V m c main_v27 : S1x256.Idx → EReal) = shapeCast S1x256 (be0K m c) shapeCasts_S256_S1x256) _).trans (shapeCast_a_1a_apply _ _ 0 q)
  show V0 m c (Proc.devRef .tc main_v27) = _
  rw [V0_split]
  dsimp only [hostOps0_9]
  after_results
  exact congrArg (fun x => shapeCast S1x256 x shapeCasts_S256_S1x256) (Wpre_arg m c main_arg12 (by decide))
theorem win8_at (q : Fin 128) : (V m c main_v28 : S1x128.Idx → EReal) (ix2 (0 : Fin 1) q) = be1K m c (ix1 q) := by
  refine (congrFun (?_ : (V m c main_v28 : S1x128.Idx → EReal) = shapeCast S1x128 (be1K m c) shapeCasts_S128_S1x128) _).trans (shapeCast_a_1a_apply _ _ 0 q)
  show V0 m c (Proc.devRef .tc main_v28) = _
  rw [V0_split]
  dsimp only [hostOps0_9]
  after_results
  exact congrArg (fun x => shapeCast S1x128 x shapeCasts_S128_S1x128) (Wpre_arg m c main_arg14 (by decide))

end AtIdeal

end Cert.Proof.KIValue

end
-- ==== Proof.KIValue.lean ====
import proofs.«414085_j14620068675791_1_alg».proof.Proof.ValDefs
import proofs.«414085_j14620068675791_1_alg».proof.Proof.KIPayload
import proofs.«414085_j14620068675791_1_alg».proof.Proof.KIWindows
import Idealize.ShloMosaic.Lib.Pipeline.Value
import Idealize.ShloMosaic.Lib.ValueIdx

set_option maxRecDepth 16384

noncomputable section

namespace Cert.Proof.KIValue

open Idealize.ShloMosaic Idealize.ShloMosaic.TcCoe Idealize.SL.Sem Idealize.ShloMosaic.ValueIdx
open Idealize.ShloMosaic.Pipeline (Dat)
open Cert.KernelIdeal Cert.KernelIdeal.Gen Cert.Proof.Val

variable (m : KM) (c : Dev Cert.KernelIdeal.nD)

theorem hz : (![0, 0] : Fin 2 → Nat) = fun _ => 0 := funext fun a => by fin_cases a <;> rfl

theorem idx_rows : ∀ t : Fin cfg0.N, win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem idx1 : ∀ (t : Fin cfg0.N) (a : Fin 2), win0_1.index t a = 0 := (by decide +kernel : ∀ (t : Fin grid0.N) (a : Fin 2), _)
theorem idx2 : ∀ (t : Fin cfg0.N) (a : Fin 2), win0_2.index t a = 0 := (by decide +kernel : ∀ (t : Fin grid0.N) (a : Fin 2), _)
theorem idx3 : ∀ (t : Fin cfg0.N) (a : Fin 2), win0_3.index t a = 0 := (by decide +kernel : ∀ (t : Fin grid0.N) (a : Fin 2), _)
theorem idx4 : ∀ (t : Fin cfg0.N) (a : Fin 2), win0_4.index t a = 0 := (by decide +kernel : ∀ (t : Fin grid0.N) (a : Fin 2), _)
theorem idx5 : ∀ (t : Fin cfg0.N) (a : Fin 2), win0_5.index t a = 0 := (by decide +kernel : ∀ (t : Fin grid0.N) (a : Fin 2), _)
theorem idx6 : ∀ (t : Fin cfg0.N) (a : Fin 2), win0_6.index t a = 0 := (by decide +kernel : ∀ (t : Fin grid0.N) (a : Fin 2), _)
theorem idx7 : ∀ (t : Fin cfg0.N) (a : Fin 2), win0_7.index t a = 0 := (by decide +kernel : ∀ (t : Fin grid0.N) (a : Fin 2), _)
theorem idx8 : ∀ (t : Fin cfg0.N) (a : Fin 2), win0_8.index t a = 0 := (by decide +kernel : ∀ (t : Fin grid0.N) (a : Fin 2), _)

-- Row p of the operand's block at point t is row 3200 t + p of the operand.
theorem iblk0_at (t : Fin cfg0.N) (p : Fin 3200) (k : Fin 512) (e : Fin 400000) (he : e.val = 3200 * t.val + p.val) :
    (Hand.iblk m c 0 t : Vec Ideal S3200x512 .bf16) (ix2 p k) = concatK m c (ix2 e k) := by
  obtain ⟨h0, h1, -⟩ := idx_rows t
  unfold Hand.iblk
  rw [View.read_apply]
  refine congrArg (Hand.V m c main_v20) (Shape.idx_ext₂ ?_ ?_)
  · show win0_0.index t 0 * 3200 + 1 * p.val = e.val; rw [h0, he]; omega
  · show win0_0.index t 1 * 512 + 1 * k.val = k.val; rw [h1]; omega

-- Read through the rectangle of its own sizes at offset zero, an array is itself.
theorem iblk1_eq (t : Fin cfg0.N) : (Hand.iblk m c 1 t : Vec Ideal S512x256 .bf16) = Wn0K m c :=
  (Memref.read_access_unit_zero (Elt Ideal) main_v21 (off := fun a => win0_1.index t a * S512x256.size a)
    (funext fun a => by rw [idx1, Nat.zero_mul]) _ _).trans (win1_eq m c)
theorem iblk2_at (t : Fin cfg0.N) (q : Fin 256) : (Hand.iblk m c 2 t : Vec Ideal S1x256 .f32) (ix2 (0 : Fin 1) q) = bn0K m c (ix1 q) :=
  (congrFun (Memref.read_access_unit_zero (Elt Ideal) main_v25 (off := fun a => win0_2.index t a * S1x256.size a)
    (funext fun a => by rw [idx2, Nat.zero_mul]) _ _) _).trans (win2_at m c q)
theorem iblk3_eq (t : Fin cfg0.N) : (Hand.iblk m c 3 t : Vec Ideal S256x128 .bf16) = Wn1K m c :=
  (Memref.read_access_unit_zero (Elt Ideal) main_v22 (off := fun a => win0_3.index t a * S256x128.size a)
    (funext fun a => by rw [idx3, Nat.zero_mul]) _ _).trans (win3_eq m c)
theorem iblk4_at (t : Fin cfg0.N) (q : Fin 128) : (Hand.iblk m c 4 t : Vec Ideal S1x128 .f32) (ix2 (0 : Fin 1) q) = bn1K m c (ix1 q) :=
  (congrFun (Memref.read_access_unit_zero (Elt Ideal) main_v26 (off := fun a => win0_4.index t a * S1x128.size a)
    (funext fun a => by rw [idx4, Nat.zero_mul]) _ _) _).trans (win4_at m c q)
theorem iblk5_eq (t : Fin cfg0.N) : (Hand.iblk m c 5 t : Vec Ideal S512x256 .bf16) = We0K m c :=
  (Memref.read_access_unit_zero (Elt Ideal) main_v23 (off := fun a => win0_5.index t a * S512x256.size a)
    (funext fun a => by rw [idx5, Nat.zero_mul]) _ _).trans (win5_eq m c)
theorem iblk6_at (t : Fin cfg0.N) (q : Fin 256) : (Hand.iblk m c 6 t : Vec Ideal S1x256 .f32) (ix2 (0 : Fin 1) q) = be0K m c (ix1 q) :=
  (congrFun (Memref.read_access_unit_zero (Elt Ideal) main_v27 (off := fun a => win0_6.index t a * S1x256.size a)
    (funext fun a => by rw [idx6, Nat.zero_mul]) _ _) _).trans (win6_at m c q)
theorem iblk7_eq (t : Fin cfg0.N) : (Hand.iblk m c 7 t : Vec Ideal S256x128 .bf16) = We1K m c :=
  (Memref.read_access_unit_zero (Elt Ideal) main_v24 (off := fun a => win0_7.index t a * S256x128.size a)
    (funext fun a => by rw [idx7, Nat.zero_mul]) _ _).trans (win7_eq m c)
theorem iblk8_at (t : Fin cfg0.N) (q : Fin 128) : (Hand.iblk m c 8 t : Vec Ideal S1x128 .f32) (ix2 (0 : Fin 1) q) = be1K m c (ix1 q) :=
  (congrFun (Memref.read_access_unit_zero (Elt Ideal) main_v28 (off := fun a => win0_8.index t a * S1x128.size a)
    (funext fun a => by rw [idx8, Nat.zero_mul]) _ _) _).trans (win8_at m c q)

def G (W0 : S512x256.Idx → EReal) (b0 : S256.Idx → EReal) (W1 : S256x128.Idx → EReal) (b1 : S128.Idx → EReal) : S400000x128.Idx → EReal :=
  fun i => mlpAt (concatK m c) W0 b0 W1 b1 (i 0) (i 1)

-- At any index of block t the stored value is the perceptron of the operand's row.
theorem block_at (t : Fin cfg0.N) (W0 : Vec Ideal S512x256 .bf16) {x2 : Vec Ideal S1x256 .f32} (W1 : Vec Ideal S256x128 .bf16) {x4 : Vec Ideal S1x128 .f32}
    {b0 : S256.Idx → EReal} {b1 : S128.Idx → EReal} (h2 : ∀ q, x2 (ix2 (0 : Fin 1) q) = b0 (ix1 q)) (h4 : ∀ q, x4 (ix2 (0 : Fin 1) q) = b1 (ix1 q))
    (j : S3200x128.Idx) (e : Fin 400000) (n : Fin 128) (he : e.val = 3200 * t.val + (j 0).val) (hn : n.val = (j 1).val) :
    k0_pay3 (F := Ideal) (Hand.iblk m c 0 t) W0 x2 W1 x4 j = mlpAt (concatK m c) W0 b0 W1 b1 e n := by
  obtain ⟨p, q, rfl⟩ : ∃ (p : Fin 3200) (q : Fin 128), j = ix2 p q := ⟨j 0, j 1, eq_ix2 j⟩
  obtain rfl : n = q := Fin.ext hn
  rw [pay3_at]
  unfold mlpAt
  simp only [h2, h4, fun k => iblk0_at m c t p k e he]

theorem out9_eq (x0 : Vec Ideal S3200x512 .bf16) (x1 : Vec Ideal S512x256 .bf16) (x2 : Vec Ideal S1x256 .f32) (x3 : Vec Ideal S256x128 .bf16) (x4 : Vec Ideal S1x128 .f32) :
    Hand.out0_9 x0 x1 x2 x3 x4 = k0_pay3 x0 x1 x2 x3 x4 := by
  unfold Hand.out0_9
  rw [View.canon_unit_zero hz]
  simp only [View.ld_unit_zero (S := S3200x512) hz, View.ld_unit_zero (S := S512x256) hz, View.ld_unit_zero (S := S1x256) hz,
    View.ld_unit_zero (S := S256x128) hz, View.ld_unit_zero (S := S1x128) hz]

theorem out10_eq : @Hand.out0_10 Ideal _ = @Hand.out0_9 Ideal _ := rfl

theorem cut_apply (w : Fin cfg0.W) (t : Fin cfg0.N) {α : Type} (P : (cfg0.win w).block.Idx → α) (j : ((cfg0.win w).xblock (grid0.coords t)).Idx) :
    (cfg0.win w).cut (grid0.coords t) P j = P ((cfg0.win w).xinj (grid0.coords t) j) := rfl

theorem row_lt (i : S400000x128.Idx) : (i 0).val / 3200 < cfg0.N := by
  rw [show cfg0.N = 125 from N_0]; have hi : (i 0).val < 400000 := (i 0).isLt; omega

-- Row e lies in the block of point e / 3200.
theorem mem_rows (idx : Fin 2 → Nat) (i : S400000x128.Idx) (h0 : idx 0 = (i 0).val / 3200) (h1 : idx 1 = 0) (a : Fin 2) :
    idx a * S3200x128.size a ≤ (i a).val ∧ (i a).val < idx a * S3200x128.size a + S3200x128.size a := by
  match a with
  | ⟨0, _⟩ => show idx 0 * 3200 ≤ (i 0).val ∧ (i 0).val < idx 0 * 3200 + 3200; rw [h0]; omega
  | ⟨1, _⟩ => show idx 1 * 128 ≤ (i 1).val ∧ (i 1).val < idx 1 * 128 + 128; rw [h1]; have hi : (i 1).val < 128 := (i 1).isLt; omega

-- The 125 row blocks cover the 400000 rows, and block t of the result is block t of one function of the whole arrays.
theorem msgsK_at (e : Fin 400000) (n : Fin 128) :
    msgsK m c (ix2 e n) = mlpAt (concatK m c) (Wn0K m c) (bn0K m c) (Wn1K m c) (bn1K m c) e n := by
  refine congrFun ((Hand.dats m 0 c).arrAt_eq_of_cover 9 (G m c (Wn0K m c) (bn0K m c) (Wn1K m c) (bn1K m c)) (fun t _ => ?_) (fun (i : S400000x128.Idx) => ?_)) (ix2 e n)
  · show (cfg0.win 9).cut (grid0.coords t) ((Hand.dats m 0 c).after 9 t) = _
    rw [Hand.after0_9, out9_eq, iblk1_eq, iblk3_eq]
    obtain ⟨-, -, h0, h1, -, -⟩ := idx_rows t
    funext j
    rw [View.read_apply, cut_apply]
    refine Eq.trans ?_ (cast_eq _ _).symm
    unfold G
    refine block_at m c t _ _ (iblk2_at m c t) (iblk4_at m c t) _ _ _ ?_ ?_
    · show win0_9.index t 0 * 3200 + 1 * (j 0).val = 3200 * t.val + (j 0).val; rw [h0]; omega
    · show win0_9.index t 1 * 128 + 1 * (j 1).val = (j 1).val; rw [h1]; omega
  · obtain ⟨-, -, h0, h1, -, -⟩ := idx_rows ⟨(i 0).val / 3200, row_lt i⟩
    refine ⟨⟨(i 0).val / 3200, row_lt i⟩, flush0_9 _, ?_⟩
    show i ∈ ((View.whole main_v29_0).slice (win0_9.rect ⟨(i 0).val / 3200, row_lt i⟩)).set
    rw [View.set_slice_whole, Rect.mem_set_unit]
    exact mem_rows _ i h0 h1

theorem edgesK_at (e : Fin 400000) (n : Fin 128) :
    edgesK m c (ix2 e n) = mlpAt (concatK m c) (We0K m c) (be0K m c) (We1K m c) (be1K m c) e n := by
  refine congrFun ((Hand.dats m 0 c).arrAt_eq_of_cover 10 (G m c (We0K m c) (be0K m c) (We1K m c) (be1K m c)) (fun t _ => ?_) (fun (i : S400000x128.Idx) => ?_)) (ix2 e n)
  · show (cfg0.win 10).cut (grid0.coords t) ((Hand.dats m 0 c).after 10 t) = _
    rw [Hand.after0_10, out10_eq, out9_eq, iblk5_eq, iblk7_eq]
    obtain ⟨-, -, -, -, h0, h1⟩ := idx_rows t
    funext j
    rw [View.read_apply, cut_apply]
    refine Eq.trans ?_ (cast_eq _ _).symm
    unfold G
    refine block_at m c t _ _ (iblk6_at m c t) (iblk8_at m c t) _ _ _ ?_ ?_
    · show win0_10.index t 0 * 3200 + 1 * (j 0).val = 3200 * t.val + (j 0).val; rw [h0]; omega
    · show win0_10.index t 1 * 128 + 1 * (j 1).val = (j 1).val; rw [h1]; omega
  · obtain ⟨-, -, -, -, h0, h1⟩ := idx_rows ⟨(i 0).val / 3200, row_lt i⟩
    refine ⟨⟨(i 0).val / 3200, row_lt i⟩, flush0_10 _, ?_⟩
    show i ∈ ((View.whole main_v29_1).slice (win0_10.rect ⟨(i 0).val / 3200, row_lt i⟩)).set
    rw [View.set_slice_whole, Rect.mem_set_unit]
    exact mem_rows _ i h0 h1

end Cert.Proof.KIValue

end
-- ==== Proof.ValDefsR.lean ====
import proofs.«414085_j14620068675791_1_alg».proof.Proof.ValDefs
import proofs.«414085_j14620068675791_1_alg».proof.Proof.RefOps
import Idealize.ShloMosaic.Lib.StableHlo.Run

noncomputable section

namespace Cert.Proof.Val

open Idealize.ShloMosaic Idealize.ShloMosaic.TcCoe Idealize.SL.Sem
open Idealize.ShloMosaic.ValueIdx

abbrev RM := (ℓ : Loc Cert.ReferenceIdeal.nD Cert.ReferenceIdeal.τ Cert.ReferenceIdeal.sig) → Buf (Elt Ideal) ℓ

section R
open Cert.ReferenceIdeal
variable (m' : RM) (c : Dev Cert.ReferenceIdeal.nD)

abbrev afterR : Valuation τ sig (Elt Ideal) := StableHlo.after (Cert.ReferenceIdeal.Hand.ops (F := Ideal)) (StableHlo.launchContents m' c)
def concatR : S400000x512.Idx → EReal := afterR m' c (Proc.devRef .tc main_v31)
def msgsR : S400000x128.Idx → EReal := afterR m' c (Proc.devRef .tc main_v41)
def edgesR : S400000x128.Idx → EReal := afterR m' c (Proc.devRef .tc main_v54)
def nodesR : S25000x128.Idx → EReal := afterR m' c (Proc.devRef .tc main_v44)
def globR : S8x128.Idx → EReal := afterR m' c (Proc.devRef .tc main_v117)
def Wn0R : S512x256.Idx → EReal := m' ((c.tc : Thread nD τ).loc main_arg7)
def bn0R : S256.Idx → EReal := m' ((c.tc : Thread nD τ).loc main_arg8)
def Wn1R : S256x128.Idx → EReal := m' ((c.tc : Thread nD τ).loc main_arg9)
def bn1R : S128.Idx → EReal := m' ((c.tc : Thread nD τ).loc main_arg10)
def We0R : S512x256.Idx → EReal := m' ((c.tc : Thread nD τ).loc main_arg11)
def be0R : S256.Idx → EReal := m' ((c.tc : Thread nD τ).loc main_arg12)
def We1R : S256x128.Idx → EReal := m' ((c.tc : Thread nD τ).loc main_arg13)
def be1R : S128.Idx → EReal := m' ((c.tc : Thread nD τ).loc main_arg14)
end R

end Cert.Proof.Val

end
-- ==== Proof.RefValue.lean ====
import proofs.«414085_j14620068675791_1_alg».proof.Proof.ValDefsR
import proofs.«414085_j14620068675791_1_alg».proof.Proof.RefLayer

set_option maxRecDepth 16384

noncomputable section

namespace Cert.Proof.RefValue

open Cert.ReferenceIdeal Cert.ReferenceIdeal.Gen Cert.ReferenceIdeal.Hand
open Idealize.ShloMosaic Idealize.ShloMosaic.TcCoe Idealize.SL.Sem
open Idealize.ShloMosaic.ValueIdx Idealize.ShloMosaic.StableHlo
open Cert.Proof.Val Cert.Proof.RefLayer

section Frames

variable {F : FTy → Type} [FloatOps F]

def WritesAbove (n : Nat) (op : HloOp τ sig (Elt F)) : Prop :=
  ∀ r : Ref sig .tc, r.idx.val ≤ n → (Proc.devRef (τ := τ) .tc r) ∉ op.writes

theorem writesAbove_of_writes {n : Nat} {op : HloOp τ sig (Elt F)} {y : Ref sig .tc}
    (hw : op.writes = {Proc.devRef (τ := τ) .tc y}) (hy : n < y.idx.val) : WritesAbove n op := by
  intro r hr hmem
  rw [hw, Finset.mem_singleton] at hmem
  have := Proc.devRef_injective _ hmem
  subst this
  omega

-- A buffer at or before place n keeps its contents through operations that write only after place n.
theorem after_keep {n : Nat} (ops : List (HloOp τ sig (Elt F))) (V : Valuation τ sig (Elt F))
    (h : ops.Forall (WritesAbove n)) (r : Ref sig .tc) (hr : r.idx.val ≤ n) :
    after ops V (Proc.devRef .tc r) = V (Proc.devRef .tc r) :=
  after_of_forall_not_mem ops V fun op hop => (List.forall_iff_forall_mem.mp h) op hop r hr

abbrev segA : List (List (HloOp τ sig (Elt F))) := [ops0, ops1, ops2, ops3, ops4, ops5, ops6, ops7, ops8, ops9]
abbrev segB : List (List (HloOp τ sig (Elt F))) := [ops10, ops11, ops12, ops13]
abbrev segC : List (List (HloOp τ sig (Elt F))) := [ops14]
abbrev segD : List (List (HloOp τ sig (Elt F))) := [ops15, ops16, ops17, ops18, ops19]
abbrev segE : List (List (HloOp τ sig (Elt F))) := [ops20, ops21, ops22, ops23, ops24, ops25, ops26, ops27, ops28, ops29, ops30, ops31, ops32, ops33, ops34, ops35, ops36, ops37, ops38, ops39, ops40, ops41, ops42, ops43, ops44, ops45, ops46]

theorem ops_eq : (Cert.ReferenceIdeal.Hand.ops : List (HloOp τ sig (Elt F)))
    = segA.flatten ++ (segB.flatten ++ (segC.flatten ++ (segD.flatten ++ segE.flatten))) := by
  show (segA ++ (segB ++ (segC ++ (segD ++ segE)))).flatten = _
  simp only [List.flatten_append]

-- Every operation writes one buffer, placed after all that were written before it.
theorem segA_above : (segA (F := F)).flatten.Forall (WritesAbove 22) := by
  repeat' apply And.intro
  all_goals exact writesAbove_of_writes rfl (by decide)
theorem segB_above : (segB (F := F)).flatten.Forall (WritesAbove 93) := by
  repeat' apply And.intro
  all_goals exact writesAbove_of_writes rfl (by decide)
theorem segC_above : (segC (F := F)).flatten.Forall (WritesAbove 115) := by
  repeat' apply And.intro
  all_goals exact writesAbove_of_writes rfl (by decide)
theorem segD_above : (segD (F := F)).flatten.Forall (WritesAbove 115) := by
  repeat' apply And.intro
  all_goals exact writesAbove_of_writes rfl (by decide)
theorem segE_above : (segE (F := F)).flatten.Forall (WritesAbove 141) := by
  repeat' apply And.intro
  all_goals exact writesAbove_of_writes rfl (by decide)

end Frames

section Terms

variable {F : FTy → Type} [FloatOps F]

def layerT1 (x : (⟨S400000x512, .f32⟩ : BufTy).Contents (Elt F)) (W : (⟨S512x256, .f32⟩ : BufTy).Contents (Elt F))
    (b : (⟨S256, .f32⟩ : BufTy).Contents (Elt F)) : (⟨S400000x256, .f32⟩ : BufTy).Contents (Elt F) :=
  leaky bcast_S_S400000x256 (addf (Host.dotGeneral dot_S400000x512_S512x256_S400000x256_1_0_0_1_n_n none x W)
    (broadcastInDim S400000x256 ![0, 1] bcast_S1x256_S400000x256_0_1 (broadcastInDim S1x256 ![1] bcast_S256_S1x256_1 b)))

def layerT2 (x : (⟨S400000x256, .f32⟩ : BufTy).Contents (Elt F)) (W : (⟨S256x128, .f32⟩ : BufTy).Contents (Elt F))
    (b : (⟨S128, .f32⟩ : BufTy).Contents (Elt F)) : (⟨S400000x128, .f32⟩ : BufTy).Contents (Elt F) :=
  leaky bcast_S_S400000x128 (addf (Host.dotGeneral dot_S400000x256_S256x128_S400000x128_1_0_0_1_n_n none x W)
    (broadcastInDim S400000x128 ![0, 1] bcast_S1x128_S400000x128_0_1 (broadcastInDim S1x128 ![1] bcast_S128_S1x128_1 b)))

theorem segB_msgs (V : Valuation τ sig (Elt F)) :
    after (segB (F := F)).flatten V (Proc.devRef .tc main_v41)
      = layerT2 (layerT1 (V (Proc.devRef .tc main_v31)) (V (Proc.devRef .tc main_arg7)) (V (Proc.devRef .tc main_arg8)))
          (V (Proc.devRef .tc main_arg9)) (V (Proc.devRef .tc main_arg10)) := by
  simp only [segB, ops10, ops11, ops12, ops13, List.flatten_cons, List.flatten_nil, List.append_nil, List.cons_append, List.nil_append]
  after_results_simp
  rfl

theorem segD_edges (V : Valuation τ sig (Elt F)) :
    after (segD (F := F)).flatten V (Proc.devRef .tc main_v54)
      = layerT2 (layerT1 (V (Proc.devRef .tc main_v31)) (V (Proc.devRef .tc main_arg11)) (V (Proc.devRef .tc main_arg12)))
          (V (Proc.devRef .tc main_arg13)) (V (Proc.devRef .tc main_arg14)) := by
  simp only [segD, ops15, ops16, ops17, ops18, ops19, List.flatten_cons, List.flatten_nil, List.append_nil, List.cons_append, List.nil_append]
  after_results_simp
  rfl

end Terms

section AtIdeal

-- Each of the two layers read at a row is the specification's layer on that row.
theorem mlpT_apply (x : S400000x512.Idx → EReal) (W0 : S512x256.Idx → EReal) (b0 : S256.Idx → EReal)
    (W1 : S256x128.Idx → EReal) (b1 : S128.Idx → EReal) (e : Fin 400000) (n : Fin 128) :
    layerT2 (F := Ideal) (layerT1 (F := Ideal) x W0 b0) W1 b1 (ix2 e n) = mlpAt x W0 b0 W1 b1 e n := by
  refine (layer_apply bcast_S128_S1x128_1 bcast_S1x128_S400000x128_0_1 bcast_S_S400000x128 _ W1 b1 e n).trans ?_
  unfold mlpAt Cert.Spec.mlp2
  congr 1
  funext k
  exact layer_apply bcast_S256_S1x256_1 bcast_S1x256_S400000x256_0_1 bcast_S_S400000x256 x W0 b0 e k

variable (m' : RM) (c : Dev Cert.ReferenceIdeal.nD)

def VA : Valuation τ sig (Elt Ideal) := after (segA (F := Ideal)).flatten (launchContents m' c)

theorem afterR_eq : afterR m' c = after (segE (F := Ideal)).flatten (after (segD (F := Ideal)).flatten
    (after (segC (F := Ideal)).flatten (after (segB (F := Ideal)).flatten (VA m' c)))) := by
  unfold VA
  show after (Cert.ReferenceIdeal.Hand.ops (F := Ideal)) (launchContents m' c) = _
  rw [ops_eq, after_append, after_append, after_append, after_append]

theorem VA_arg (r : Ref sig .tc) (hr : r.idx.val ≤ 22) : VA m' c (Proc.devRef .tc r) = m' ((c.tc : Thread nD τ).loc r) :=
  after_keep _ _ segA_above r hr

-- What is written by the concatenation is still there after the next two segments.
theorem VC_keep (r : Ref sig .tc) (hr : r.idx.val ≤ 93) :
    after (segC (F := Ideal)).flatten (after (segB (F := Ideal)).flatten (VA m' c)) (Proc.devRef .tc r) = VA m' c (Proc.devRef .tc r) := by
  rw [after_keep _ _ segC_above r (by omega), after_keep _ _ segB_above r hr]

theorem concatR_eq : concatR m' c = VA m' c (Proc.devRef .tc main_v31) := by
  unfold concatR
  rw [afterR_eq, after_keep _ _ segE_above main_v31 (by decide), after_keep _ _ segD_above main_v31 (by decide),
    VC_keep m' c main_v31 (by decide)]

theorem msgsR_at (e : Fin 400000) (n : Fin 128) :
    msgsR m' c (ix2 e n) = mlpAt (concatR m' c) (Wn0R m' c) (bn0R m' c) (Wn1R m' c) (bn1R m' c) e n := by
  rw [← mlpT_apply]
  unfold msgsR
  rw [afterR_eq, after_keep _ _ segE_above main_v41 (by decide), after_keep _ _ segD_above main_v41 (by decide),
    after_keep _ _ segC_above main_v41 (by decide), segB_msgs, ← concatR_eq, VA_arg m' c main_arg7 (by decide),
    VA_arg m' c main_arg8 (by decide), VA_arg m' c main_arg9 (by decide), VA_arg m' c main_arg10 (by decide)]
  rfl

theorem edgesR_at (e : Fin 400000) (n : Fin 128) :
    edgesR m' c (ix2 e n) = mlpAt (concatR m' c) (We0R m' c) (be0R m' c) (We1R m' c) (be1R m' c) e n := by
  rw [← mlpT_apply]
  unfold edgesR
  rw [afterR_eq, after_keep _ _ segE_above main_v54 (by decide), segD_edges, VC_keep m' c main_v31 (by decide), ← concatR_eq,
    VC_keep m' c main_arg11 (by decide), VC_keep m' c main_arg12 (by decide), VC_keep m' c main_arg13 (by decide),
    VC_keep m' c main_arg14 (by decide), VA_arg m' c main_arg11 (by decide), VA_arg m' c main_arg12 (by decide),
    VA_arg m' c main_arg13 (by decide), VA_arg m' c main_arg14 (by decide)]
  rfl

end AtIdeal

end Cert.Proof.RefValue

end
-- ==== Proof.LibTakeRows.lean ====
import Idealize.ShloMosaic.Lib.ReduceAll
import Idealize.ShloMosaic.Lib.ValueIdx
import Idealize.ShloMosaic.Lib.Pipeline.Value
import Idealize.ShloMosaic.Lib.StableHlo.Run

noncomputable section

namespace Cert.Proof.TakeRows

open Idealize.ShloMosaic Idealize.ShloMosaic.ValueIdx

theorem toInt_zero32 : (0#32 : BitVec 32).toInt = 0 := by decide

/-- A non-negative word is not below zero, so the select keeps it. -/
theorem wrap_of_nonneg (w n : BitVec 32) (h0 : 0 ≤ w.toInt) :
    Scalar.select (IntOp.cmpi .slt w 0#32) (IntOp.addi w n) w = w := by
  have hne : ¬ IntOp.cmpi .slt w 0#32 = 1#1 := by
    rw [IntOp.cmpi_slt, toInt_zero32]; omega
  rw [eq_zero_of_ne_one hne, select_zero]

theorem inb_of_range (w hi : BitVec 32) (h0 : 0 ≤ w.toInt) (h1 : w.toInt ≤ hi.toInt) :
    IntOp.andi (IntOp.cmpi .sge w 0#32) (IntOp.cmpi .sle w hi) = 1#1 := by
  rw [IntOp.andi_eq_one, IntOp.cmpi_sge, IntOp.cmpi_sle, toInt_zero32]
  exact ⟨h0, h1⟩

/-- A conjunction of ones, started at one, is one. -/
theorem foldl_andi_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_all_one f l _ ?_ fun n hn => hl n (List.mem_cons_of_mem _ hn)
    rw [h, hl a List.mem_cons_self]; rfl

/-- Only (e, 0) of an [E, 1] column reduces, over the unit axis, into row `e`. -/
theorem drop_unit_col {E : Nat} (h : (⟨2, ![E, 1]⟩ : Shape).ReducesTo [1] ⟨1, ![E]⟩)
    (i : (⟨2, ![E, 1]⟩ : Shape).Idx) (e : Fin E) (hd : h.drop i = ix1 e) : i = ix2 e 0 := by
  have hv : (h.drop i 0 : Nat) = i 0 := Shape.ReducesTo.drop_apply_val h i 0
  rw [hd] at hv
  funext a
  match a with
  | ⟨0, _⟩ => exact Fin.ext hv.symm
  | ⟨1, h1⟩ =>
    apply Fin.ext
    have hlt := (i ⟨1, h1⟩).isLt
    have hs : (⟨2, ![E, 1]⟩ : Shape).size ⟨1, h1⟩ = 1 := rfl
    show (i ⟨1, h1⟩).val = 0
    omega

theorem reduce_unit_col_eq_one {E : Nat} {u : Shape} (x : IVec ⟨2, ![E, 1]⟩ 1) (init : IVec u 1)
    (h : (⟨2, ![E, 1]⟩ : Shape).ReducesTo [1] ⟨1, ![E]⟩) (hu : 0 < u.numel) (e : Fin E)
    (hinit : init (Shape.Idx.first hu) = 1#1) (hx : x (ix2 e 0) = 1#1) :
    Host.reduce IntOp.andi x init h hu (ix1 e) = 1#1 := by
  rw [Host.reduce_eq_foldl]
  refine foldl_andi_all_one x _ _ hinit fun i hi => ?_
  rw [drop_unit_col h i e (of_decide_eq_true (List.mem_filter.1 hi).2)]
  exact hx

theorem bcast_axis0_apply {α : Type} {E C : Nat} (hb : (⟨1, ![E]⟩ : Shape).BroadcastsInDim ⟨2, ![E, C]⟩ ![0])
    (x : (⟨1, ![E]⟩ : Shape).Idx → α) (e : Fin E) (q : Fin C) :
    broadcastInDim ⟨2, ![E, C]⟩ ![0] hb x (ix2 e q) = x (ix1 e) := by
  refine broadcastInDim_apply ![0] hb x (ix2 e q) (ix1 e) fun a => ?_
  match a with
  | ⟨0, _⟩ =>
    show e.val = if E = 1 then 0 else e.val
    have := e.isLt
    split <;> omega

/-- Where the index word of row `e` lies in [0, hiw] the wrap keeps it and both range tests are one, so the select reads `g`. -/
theorem take_fill_apply {α : Type} {E C : Nat} {u : Shape}
    (s zero nwrap : IVec ⟨1, ![E]⟩ 32) (zero2 hi : IVec ⟨2, ![E, 1]⟩ 32) (one : IVec u 1)
    (g fill : (⟨2, ![E, C]⟩ : Shape).Idx → α)
    (hb1 : (⟨1, ![E]⟩ : Shape).BroadcastsInDim ⟨2, ![E, 1]⟩ ![0])
    (hr : (⟨2, ![E, 1]⟩ : Shape).ReducesTo [1] ⟨1, ![E]⟩) (hu : 0 < u.numel)
    (hb2 : (⟨1, ![E]⟩ : Shape).BroadcastsInDim ⟨2, ![E, C]⟩ ![0])
    (e : Fin E) (q : Fin C) (hiw : BitVec 32)
    (hzero : zero (ix1 e) = 0#32) (hzero2 : zero2 (ix2 e 0) = 0#32) (hhi : hi (ix2 e 0) = hiw)
    (hone : one (Shape.Idx.first hu) = 1#1)
    (h0 : 0 ≤ (s (ix1 e)).toInt) (h1 : (s (ix1 e)).toInt ≤ hiw.toInt) :
    select
      (broadcastInDim ⟨2, ![E, C]⟩ ![0] hb2
        (Host.reduce IntOp.andi
          (andi (cmpi .sge (broadcastInDim ⟨2, ![E, 1]⟩ ![0] hb1 (select (cmpi .slt s zero) (addi s nwrap) s)) zero2)
                (cmpi .sle (broadcastInDim ⟨2, ![E, 1]⟩ ![0] hb1 (select (cmpi .slt s zero) (addi s nwrap) s)) hi))
          one hr hu))
      g fill (ix2 e q) = g (ix2 e q) := by
  have hidx : broadcastInDim ⟨2, ![E, 1]⟩ ![0] hb1 (select (cmpi .slt s zero) (addi s nwrap) s) (ix2 e 0) = s (ix1 e) := by
    rw [bcast_axis0_apply]
    show Scalar.select (IntOp.cmpi .slt (s (ix1 e)) (zero (ix1 e))) (IntOp.addi (s (ix1 e)) (nwrap (ix1 e))) (s (ix1 e)) = _
    rw [hzero, wrap_of_nonneg _ _ h0]
  rw [select_apply, bcast_axis0_apply, reduce_unit_col_eq_one _ one hr hu e hone, select_one]
  show IntOp.andi (IntOp.cmpi .sge (broadcastInDim ⟨2, ![E, 1]⟩ ![0] hb1 (select (cmpi .slt s zero) (addi s nwrap) s) (ix2 e 0)) (zero2 (ix2 e 0)))
      (IntOp.cmpi .sle (broadcastInDim ⟨2, ![E, 1]⟩ ![0] hb1 (select (cmpi .slt s zero) (addi s nwrap) s) (ix2 e 0)) (hi (ix2 e 0))) = 1#1
  rw [hidx, hzero2, hhi]
  exact inb_of_range _ _ h0 h1

/-- Column `j` of four width-128 pieces side by side is piece `j / 128` at column `j % 128`, so piecewise agreement suffices. -/
theorem concat4_congr {α : Type} {E : Nat} (x0 x1 x2 x3 y0 y1 y2 y3 : (⟨2, ![E, 128]⟩ : Shape).Idx → α)
    (hx) (hy) (e : Fin E) (j : Fin 512)
    (h0 : ∀ q : Fin 128, x0 (ix2 e q) = y0 (ix2 e q)) (h1 : ∀ q : Fin 128, x1 (ix2 e q) = y1 (ix2 e q))
    (h2 : ∀ q : Fin 128, x2 (ix2 e q) = y2 (ix2 e q)) (h3 : ∀ q : Fin 128, x3 (ix2 e q) = y3 (ix2 e q)) :
    concatenate ⟨2, ![E, 512]⟩ 1 [⟨⟨2, ![E, 128]⟩, x0⟩, ⟨⟨2, ![E, 128]⟩, x1⟩, ⟨⟨2, ![E, 128]⟩, x2⟩, ⟨⟨2, ![E, 128]⟩, x3⟩] hx (ix2 e j)
      = concatenate ⟨2, ![E, 512]⟩ 1 [⟨⟨2, ![E, 128]⟩, y0⟩, ⟨⟨2, ![E, 128]⟩, y1⟩, ⟨⟨2, ![E, 128]⟩, y2⟩, ⟨⟨2, ![E, 128]⟩, y3⟩] hy (ix2 e j) := by
  have hn : j.val / 128 < 4 := by have := j.isLt; omega
  have hq : j.val % 128 < 128 := Nat.mod_lt _ (by decide)
  have hoff : ∀ b : Fin (⟨2, ![E, 128]⟩ : Shape).rank, b.cast (rfl : (⟨2, ![E, 128]⟩ : Shape).rank = (⟨2, ![E, 512]⟩ : Shape).rank) ≠ 1 →
      ((ix2 e (⟨j.val % 128, hq⟩ : Fin 128) : (⟨2, ![E, 128]⟩ : Shape).Idx) b).val = ((ix2 e j : (⟨2, ![E, 512]⟩ : Shape).Idx) (b.cast rfl)).val := by
    intro b hb
    match b with
    | ⟨0, _⟩ => rfl
    | ⟨1, _⟩ => exact absurd rfl hb
  refine (concatenate_ofFn_apply (t := ⟨2, ![E, 512]⟩) (s₁ := ⟨2, ![E, 128]⟩) 1 ![x0, x1, x2, x3] hx rfl 128 rfl (ix2 e j) ⟨j.val / 128, hn⟩ rfl
      (ix2 e ⟨j.val % 128, hq⟩) rfl hoff).trans
    (Eq.trans ?_ (concatenate_ofFn_apply (t := ⟨2, ![E, 512]⟩) (s₁ := ⟨2, ![E, 128]⟩) 1 ![y0, y1, y2, y3] hy rfl 128 rfl (ix2 e j) ⟨j.val / 128, hn⟩ rfl
      (ix2 e ⟨j.val % 128, hq⟩) rfl hoff).symm)
  generalize (⟨j.val / 128, hn⟩ : Fin 4) = n
  match n with
  | ⟨0, _⟩ => exact h0 _
  | ⟨1, _⟩ => exact h1 _
  | ⟨2, _⟩ => exact h2 _
  | ⟨3, _⟩ => exact h3 _

end Cert.Proof.TakeRows

end
-- ==== Proof.ConcatR.lean ====
import proofs.«414085_j14620068675791_1_alg».proof.Proof.ValDefsR

set_option maxRecDepth 16384

noncomputable section

namespace Cert.Proof.ConcatR

open Idealize.ShloMosaic Idealize.ShloMosaic.TcCoe Idealize.SL.Sem
open Idealize.ShloMosaic.StableHlo
open Cert.ReferenceIdeal Cert.ReferenceIdeal.Facts₀
open Cert.Proof.Val

/-- Index words as a column, a negative word first moved up by the table's height. -/
def wrapCol (s : IVec S400000 32) : IVec S400000x1 32 :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 25000#32))) s)

/-- The table's rows at the wrapped words. -/
def rowsR (nodes : FVec Ideal S25000x128 .f32) (s : IVec S400000 32) : FVec Ideal S400000x128 .f32 :=
  Host.gather gather_S25000x128_S400000x1_S400000x128_1_0_n_n_0_1_1128 nodes (wrapCol s)

abbrev g0 (nEdge : IVec S8 32) : IVec S8 32 :=
  concatenate S8 0 [⟨S1, extractStridedSlice S1 ![7] nEdge slices_S8_S1_7⟩, ⟨S7, extractStridedSlice S7 ![0] nEdge slices_S8_S7_0⟩] concatenates_S1_S7_S8_d0
abbrev g1 (v0 : IVec S8 32) : IVec S8 32 :=
  Host.scatter scatter_S8_S1_S__n_0_0_0 (fun _ b => b) v0 (broadcastInDim S1 ![] bcast_S_S1 (constantI S_ 32 0#32)) (constantI S_ 32 0#32)
abbrev g2 (v2 : IVec S8 32) : IVec S8 32 :=
  Host.reduceWindow IntOp.addi ![8] ![1] ![7] ![0] v2 (broadcastInDim S_ ![] bcast_S_S_ (constantI S_ 32 0#32)) reduceWindows_S8_S8_w8s1p7_0 h_S_
abbrev g3 (v3 : IVec S8 32) : IVec S400000 32 :=
  Host.scatter scatter_S400000_S8x1_S8_n_0_0_1 IntOp.addi (broadcastInDim S400000 ![] bcast_S_S400000 (constantI S_ 32 0#32))
    (broadcastInDim S8x1 ![0] bcast_S8_S8x1_0
      (select (cmpi .slt v3 (broadcastInDim S8 ![] bcast_S_S8 (constantI S_ 32 0#32)))
        (addi v3 (broadcastInDim S8 ![] bcast_S_S8 (constantI S_ 32 400000#32))) v3))
    (broadcastInDim S8 ![] bcast_S_S8 (constantI S_ 32 1#32))
abbrev g4 (v12 : IVec S400000 32) : IVec S400000 32 :=
  Host.reduceWindow IntOp.addi ![400000] ![1] ![399999] ![0] v12 (broadcastInDim S_ ![] bcast_S_S_ (constantI S_ 32 0#32)) reduceWindows_S400000_S400000_w400000s1p399999_0 h_S_
abbrev g5 (v13 : IVec S400000 32) : IVec S400000 32 :=
  subi v13 (broadcastInDim S400000 ![] bcast_S_S400000 (constantI S_ 32 1#32))
abbrev g6 (v15 : IVec S400000 32) (glbs : FVec Ideal S8x128 .f32) : FVec Ideal S400000x128 .f32 :=
  have t4 : IVec S400000 32 := select (cmpi .slt v15 (broadcastInDim S400000 ![] bcast_S_S400000 (constantI S_ 32 0#32)))
    (addi v15 (broadcastInDim S400000 ![] bcast_S_S400000 (constantI S_ 32 8#32))) v15
  have t5 : IVec S400000x1 32 := broadcastInDim S400000x1 ![0] bcast_S400000_S400000x1_0 t4
  select
    (broadcastInDim S400000x128 ![0] bcast_S400000_S400000x128_0
      (Host.reduce IntOp.andi
        (andi (cmpi .sge t5 (broadcastInDim S400000x1 ![] bcast_S_S400000x1 (constantI S_ 32 0#32)))
              (cmpi .sle t5 (broadcastInDim S400000x1 ![0, 1] bcast_S1x1_S400000x1_0_1 (broadcastInDim S1x1 ![1] bcast_S1_S1x1_1 (constantI S1 32 7#32)))))
        (constantI S_ 1 1#1) reducesTo_S400000x1_S400000_d1 h_S_))
    (Host.gather gather_S8x128_S400000x1_S400000x128_1_0_n_n_0_1_1128 glbs t5)
    (broadcastInDim S400000x128 ![] bcast_S_S400000x128 (constant (F := Ideal) S_ .f32 0x7FC00000#32))

/-- The per-graph rows along the edges: counts rolled, zero-led and summed give each graph's first edge; marks there, summed, less one, give each edge's graph. -/
abbrev globRowsR (nEdge : IVec S8 32) (glbs : FVec Ideal S8x128 .f32) : FVec Ideal S400000x128 .f32 :=
  g6 (g5 (g4 (g3 (g2 (g1 (g0 nEdge)))))) glbs

/-- A stretch that writes no argument leaves every argument as it found it. -/
theorem after_keepsArgs (W : Valuation τ sig (Elt Ideal)) (l : List (HloOp τ sig (Elt Ideal))) (h : l.Forall Hand.KeepsArgs)
    (r : Ref sig .tc) (hr : r.idx.val < 23) : after l W (Proc.devRef .tc r) = W (Proc.devRef .tc r) :=
  after_of_forall_not_mem l W fun op hop => (List.forall_iff_forall_mem.mp h op hop) r hr

section Stretches
variable (W : Valuation τ sig (Elt Ideal))

theorem s9 : after (Hand.ops9 (F := Ideal)) W (Proc.devRef .tc main_v31)
    = concatenate S400000x512 1 [⟨S400000x128, W (Proc.devRef .tc main_v23)⟩, ⟨S400000x128, W (Proc.devRef .tc main_v30)⟩, ⟨S400000x128, W (Proc.devRef .tc main_arg1)⟩, ⟨S400000x128, W (Proc.devRef .tc main_v16)⟩] concatenates_S400000x128_S400000x128_S400000x128_S400000x128_S400000x512_d1 := by
  after_results
  all_goals rfl

theorem s7 : after (Hand.ops7 (F := Ideal)) W (Proc.devRef .tc main_v23) = rowsR (W (Proc.devRef .tc main_arg0)) (W (Proc.devRef .tc main_arg3)) := by
  after_results
  all_goals rfl

theorem s8 : after (Hand.ops8 (F := Ideal)) W (Proc.devRef .tc main_v30) = rowsR (W (Proc.devRef .tc main_arg0)) (W (Proc.devRef .tc main_arg4)) := by
  after_results
  all_goals rfl

theorem k8_v23 : after (Hand.ops8 (F := Ideal)) W (Proc.devRef .tc main_v23) = W (Proc.devRef .tc main_v23) := by
  after_results
  all_goals rfl

theorem k8_v16 : after (Hand.ops8 (F := Ideal)) W (Proc.devRef .tc main_v16) = W (Proc.devRef .tc main_v16) := by
  after_results
  all_goals rfl

theorem k7_v16 : after (Hand.ops7 (F := Ideal)) W (Proc.devRef .tc main_v16) = W (Proc.devRef .tc main_v16) := by
  after_results
  all_goals rfl

theorem s0 : after (Hand.ops0 (F := Ideal)) W (Proc.devRef .tc main_v0) = g0 (W (Proc.devRef .tc main_arg6)) := by
  simp only [Hand.ops0]
  after_results_simp
  all_goals (try simp only [TRef.ofBuf, TRef.toBuf, cast_eq])
  all_goals rfl
theorem s1 : after (Hand.ops1 (F := Ideal)) W (Proc.devRef .tc main_v2) = g1 (W (Proc.devRef .tc main_v0)) := by
  after_results
  all_goals rfl
theorem s2 : after (Hand.ops2 (F := Ideal)) W (Proc.devRef .tc main_v3) = g2 (W (Proc.devRef .tc main_v2)) := by
  simp only [Hand.ops2]
  after_results_simp
  all_goals (try simp only [TRef.ofBuf, TRef.toBuf, cast_eq])
  all_goals rfl
theorem s3 : after (Hand.ops3 (F := Ideal)) W (Proc.devRef .tc main_v12) = g3 (W (Proc.devRef .tc main_v3)) := by
  after_results
  all_goals rfl
theorem s4 : after (Hand.ops4 (F := Ideal)) W (Proc.devRef .tc main_v13) = g4 (W (Proc.devRef .tc main_v12)) := by
  simp only [Hand.ops4]
  after_results_simp
  all_goals (try simp only [TRef.ofBuf, TRef.toBuf, cast_eq])
  all_goals rfl
theorem s5 : after (Hand.ops5 (F := Ideal)) W (Proc.devRef .tc main_v15) = g5 (W (Proc.devRef .tc main_v13)) := by
  after_results
  all_goals rfl
theorem s6 : after (Hand.ops6 (F := Ideal)) W (Proc.devRef .tc main_v16) = g6 (W (Proc.devRef .tc main_v15)) (W (Proc.devRef .tc main_arg2)) := by
  simp only [Hand.ops6]
  after_results_simp
  all_goals (try simp only [TRef.ofBuf, TRef.toBuf, cast_eq])
  all_goals rfl

end Stretches

/-- The operations after the concatenation. -/
def postOps : List (HloOp τ sig (Elt Ideal)) := (Hand.opss.drop 10).flatten

theorem ops_split : Hand.ops (F := Ideal) = Hand.ops0 ++ (Hand.ops1 ++ (Hand.ops2 ++ (Hand.ops3 ++ (Hand.ops4 ++ (Hand.ops5 ++ (Hand.ops6 ++ (Hand.ops7 ++ (Hand.ops8 ++ (Hand.ops9 ++ (postOps)))))))))) := rfl

theorem post_keeps (W : Valuation τ sig (Elt Ideal)) : after postOps W (Proc.devRef .tc main_v31) = W (Proc.devRef .tc main_v31) :=
  after_of_forall_not_mem (b := Proc.devRef .tc main_v31) _ _ (List.forall_iff_forall_mem.mp (by
    simp only [postOps, Hand.opss, List.drop_succ_cons, List.drop_zero, List.flatten_cons, List.flatten_nil, List.append_nil, List.cons_append,
      List.nil_append, List.Forall, nullary_writes, unary_writes, binary_writes, ternary_writes, quaternary_writes, reshape_writes,
      binaryIndexed_writes, nary_writes, unaryIndexed_writes, Finset.mem_singleton]
    repeat' apply And.intro
    all_goals exact devRef_ne_of_ne (by decide)))

theorem concatR_eq (m' : RM) (c : Dev Cert.ReferenceIdeal.nD) :
    concatR m' c = concatenate S400000x512 1 [⟨S400000x128, rowsR (m' ((c.tc : Thread nD τ).loc main_arg0)) (m' ((c.tc : Thread nD τ).loc main_arg3))⟩, ⟨S400000x128, rowsR (m' ((c.tc : Thread nD τ).loc main_arg0)) (m' ((c.tc : Thread nD τ).loc main_arg4))⟩, ⟨S400000x128, m' ((c.tc : Thread nD τ).loc main_arg1)⟩, ⟨S400000x128, globRowsR (m' ((c.tc : Thread nD τ).loc main_arg6)) (m' ((c.tc : Thread nD τ).loc main_arg2))⟩] concatenates_S400000x128_S400000x128_S400000x128_S400000x128_S400000x512_d1 := by
  unfold concatR
  show after (Hand.ops (F := Ideal)) (launchContents m' c) (Proc.devRef .tc main_v31) = _
  rw [ops_split]
  simp only [after_append]
  rw [post_keeps, s9, k8_v23, s7, s8, k8_v16, k7_v16, s6, s5, s4, s3, s2, s1, s0]
  repeat (first
    | rw [after_keepsArgs _ _ (Hand.ops8_keeps (F := Ideal))] | rw [after_keepsArgs _ _ (Hand.ops7_keeps (F := Ideal))]
    | rw [after_keepsArgs _ _ (Hand.ops6_keeps (F := Ideal))] | rw [after_keepsArgs _ _ (Hand.ops5_keeps (F := Ideal))]
    | rw [after_keepsArgs _ _ (Hand.ops4_keeps (F := Ideal))] | rw [after_keepsArgs _ _ (Hand.ops3_keeps (F := Ideal))]
    | rw [after_keepsArgs _ _ (Hand.ops2_keeps (F := Ideal))] | rw [after_keepsArgs _ _ (Hand.ops1_keeps (F := Ideal))]
    | rw [after_keepsArgs _ _ (Hand.ops0_keeps (F := Ideal))])
  all_goals decide

end Cert.Proof.ConcatR

end
-- ==== Proof.ConcatGlob.lean ====
import proofs.«414085_j14620068675791_1_alg».proof.Proof.ValDefs
import proofs.«414085_j14620068675791_1_alg».proof.Proof.KIWindows
import proofs.«414085_j14620068675791_1_alg».proof.Proof.ConcatR

set_option maxRecDepth 16384

noncomputable section

namespace Cert.Proof.ConcatGlob

open Cert.KernelIdeal Cert.KernelIdeal.Gen
open Idealize.ShloMosaic Idealize.ShloMosaic.TcCoe Idealize.SL.Sem
open Idealize.ShloMosaic.ValueIdx
open Cert.Proof.Val Cert.Proof.KIValue

/-- A stretch that writes no argument leaves every argument as it found it. -/
theorem arg_through (W : Valuation τ sig (Elt Ideal)) (ops : List (HloOp τ sig (Elt Ideal)))
    (h : ops.Forall fun op => ∀ r ∈ argRefs, Proc.devRef .tc r ∉ op.writes) (r : Ref sig .tc) (hr : r ∈ argRefs) :
    StableHlo.after ops W (Proc.devRef .tc r) = W (Proc.devRef .tc r) :=
  StableHlo.after_of_forall_not_mem ops W fun op hop => (List.forall_iff_forall_mem.mp h) op hop r hr

section Stretches
variable (W : Valuation τ sig (Elt Ideal))

theorem stretch2 : (StableHlo.after hostOps0_2 W (Proc.devRef .tc main_v2) : IVec S8 32) = ConcatR.g0 (W (Proc.devRef .tc main_arg6)) := by
  after_results_simp
  all_goals (try simp only [StableHlo.TRef.ofBuf, StableHlo.TRef.toBuf, cast_cast, cast_eq])
  all_goals rfl

theorem stretch3 : (StableHlo.after hostOps0_3 W (Proc.devRef .tc main_v4) : IVec S8 32) = ConcatR.g1 (W (Proc.devRef .tc main_v2)) := by
  after_results_simp
  all_goals (try simp only [StableHlo.TRef.ofBuf, StableHlo.TRef.toBuf, cast_cast, cast_eq])
  all_goals rfl

theorem stretch4 : (StableHlo.after hostOps0_4 W (Proc.devRef .tc main_v5) : IVec S8 32) = ConcatR.g2 (W (Proc.devRef .tc main_v4)) := by
  after_results_simp
  all_goals (try simp only [StableHlo.TRef.ofBuf, StableHlo.TRef.toBuf, cast_cast, cast_eq])
  all_goals rfl

theorem stretch5 : (StableHlo.after hostOps0_5 W (Proc.devRef .tc main_v14) : IVec S400000 32) = ConcatR.g3 (W (Proc.devRef .tc main_v5)) := by
  after_results_simp
  all_goals (try simp only [StableHlo.TRef.ofBuf, StableHlo.TRef.toBuf, cast_cast, cast_eq])
  all_goals rfl

theorem stretch6 : (StableHlo.after hostOps0_6 W (Proc.devRef .tc main_v15) : IVec S400000 32) = ConcatR.g4 (W (Proc.devRef .tc main_v14)) := by
  after_results_simp
  all_goals (try simp only [StableHlo.TRef.ofBuf, StableHlo.TRef.toBuf, cast_cast, cast_eq])
  all_goals rfl

theorem stretch7 : (StableHlo.after hostOps0_7 W (Proc.devRef .tc main_v17) : IVec S400000 32) = ConcatR.g5 (W (Proc.devRef .tc main_v15)) := by
  after_results_simp
  all_goals (try simp only [StableHlo.TRef.ofBuf, StableHlo.TRef.toBuf, cast_cast, cast_eq])
  all_goals rfl

set_option maxHeartbeats 4000000 in
theorem stretch8 : (StableHlo.after hostOps0_8 W (Proc.devRef .tc main_v18) : FVec Ideal S400000x128 .f32)
    = ConcatR.g6 (W (Proc.devRef .tc main_v17)) (W (Proc.devRef .tc main_arg2)) := by
  after_results_simp
  all_goals (try simp only [StableHlo.TRef.ofBuf, StableHlo.TRef.toBuf, cast_cast, cast_eq])
  all_goals rfl

end Stretches

/-- The seven stretches composed: the fourth piece as a function of the edge counts and the global rows. -/
theorem glob_rows (m : KM) (c : Dev nD) :
    Wpre m c (Proc.devRef .tc main_v18) = ConcatR.globRowsR (m (c.tc.loc main_arg6)) (m (c.tc.loc main_arg2)) := by
  unfold Wpre
  simp only [pre9, List.flatten_cons, List.flatten_nil, List.append_nil, StableHlo.after_append]
  rw [stretch8, stretch7, stretch6, stretch5, stretch4, stretch3, stretch2]
  repeat (first
    | rw [arg_through _ _ (hostOps0_7_avoids (F := Ideal))] | rw [arg_through _ _ (hostOps0_6_avoids (F := Ideal))]
    | rw [arg_through _ _ (hostOps0_5_avoids (F := Ideal))] | rw [arg_through _ _ (hostOps0_4_avoids (F := Ideal))]
    | rw [arg_through _ _ (hostOps0_3_avoids (F := Ideal))] | rw [arg_through _ _ (hostOps0_2_avoids (F := Ideal))]
    | rw [arg_through _ _ (hostOps0_1_avoids (F := Ideal))] | rw [arg_through _ _ (hostOps0_avoids (F := Ideal))])
  all_goals first | decide | rfl

end Cert.Proof.ConcatGlob

end
-- ==== Proof.PreFacts.lean ====
import proofs.«414085_j14620068675791_1_alg».proof.Defs
import proofs.«414085_j14620068675791_1_alg».proof.Proof.ValDefs
import Idealize.ShloMosaic.Lib.ReduceAll
import Idealize.ShloMosaic.Lib.ValueIdx

noncomputable section

namespace Cert.Proof.PreFacts

open Idealize.ShloMosaic Idealize.ShloMosaic.TcCoe Idealize.SL.Sem
open Idealize.ShloMosaic.ValueIdx
open Cert.Pre_finite_inputs
open Cert.Pre_finite_inputs.Facts

variable [Cert.Pre_finite_inputs.Facts]

instance : Subsingleton S_.Idx := ⟨fun a b => funext fun d => d.elim0⟩

/-- Every word of the array reads, signed, in [0, 25000). -/
def InRange (a : IVec S400000 32) : Prop := ∀ e : Fin 400000, 0 ≤ (a (ix1 e)).toInt ∧ (a (ix1 e)).toInt < 25000

/-- Two whole-array tests that came out one, "every word ≥ 0" and "every word < 25000", hold at every entry. -/
theorem inRange_of (a : IVec S400000 32) (i1 i2 : IVec S_ 1)
    (h1 : Host.reduce IntOp.andi (cmpi .sge a (broadcastInDim S400000 ![] bcast_S_S400000 (constantI S_ 32 0#32))) i1
      reducesTo_S400000_S_d0 h_S_ ix0 = 1#1)
    (h2 : Host.reduce IntOp.andi (cmpi .slt a (broadcastInDim S400000 ![] bcast_S_S400000 (constantI S_ 32 25000#32))) i2
      reducesTo_S400000_S_d0 h_S_ ix0 = 1#1) : InRange a := fun e => by
  have g1 : IntOp.cmpi .sge (a (ix1 e)) 0#32 = 1#1 := Host.reduce_andi_all _ _ _ _ ix0 h1 (ix1 e)
  have g2 : IntOp.cmpi .slt (a (ix1 e)) 25000#32 = 1#1 := Host.reduce_andi_all _ _ _ _ ix0 h2 (ix1 e)
  rw [IntOp.cmpi_sge, show (0#32 : BitVec 32).toInt = 0 from by decide] at g1
  rw [IntOp.cmpi_slt, show (25000#32 : BitVec 32).toInt = 25000 from by decide] at g2
  exact ⟨g1, g2⟩

/-- The predicate is a conjunction whose last four conjuncts are the range tests of the sender and the receiver words. -/
theorem ranges (m : Cert.Proof.Val.KM) (h : Cert.Pre_KernelIdeal m) (c : Dev Cert.KernelIdeal.nD) :
    InRange (m ((c.tc : Thread Cert.KernelIdeal.nD Cert.KernelIdeal.τ).loc Cert.KernelIdeal.main_arg3))
      ∧ InRange (m ((c.tc : Thread Cert.KernelIdeal.nD Cert.KernelIdeal.τ).loc Cert.KernelIdeal.main_arg4)) := by
  have h := congrFun (h c) ix0
  unfold fn fn_part1 fn_part2 fn_part3 fn_part4 fn_part5 fn_part6 at h
  obtain ⟨h, r4⟩ := IntOp.andi_eq_one.mp h
  obtain ⟨h, r3⟩ := IntOp.andi_eq_one.mp h
  obtain ⟨h, s4⟩ := IntOp.andi_eq_one.mp h
  obtain ⟨-, s3⟩ := IntOp.andi_eq_one.mp h
  exact ⟨inRange_of _ _ _ s3 s4, inRange_of _ _ _ r3 r4⟩

end Cert.Proof.PreFacts

end
-- ==== Proof.Concat.lean ====
import proofs.«414085_j14620068675791_1_alg».proof.Proof.ValDefs
import proofs.«414085_j14620068675791_1_alg».proof.Proof.KIWindows
import proofs.«414085_j14620068675791_1_alg».proof.Proof.LibTakeRows
import proofs.«414085_j14620068675791_1_alg».proof.Proof.ConcatR
import proofs.«414085_j14620068675791_1_alg».proof.Proof.ConcatGlob
import proofs.«414085_j14620068675791_1_alg».proof.Proof.PreFacts
import Idealize.ShloMosaic.Lib.StableHlo.Run
import Idealize.ShloMosaic.Lib.ValueIdx

set_option maxRecDepth 16384

noncomputable section

namespace Cert.Proof.Concat

open Idealize.ShloMosaic Idealize.ShloMosaic.TcCoe Idealize.SL.Sem Idealize.ShloMosaic.StableHlo
open Idealize.ShloMosaic.ValueIdx
open Cert.Proof.Val Cert.Proof.TakeRows

section K
open Cert.KernelIdeal Cert.KernelIdeal.Gen Cert.KernelIdeal.Hand
open Cert.Proof.KIValue

/-- The node rows at the wrapped words `s`, a row whose wrapped word falls outside the table replaced by the fill value. -/
def takeRows (nodes : FVec Ideal S25000x128 .f32) (s : IVec S400000 32) : FVec Ideal S400000x128 .f32 :=
  select
    (broadcastInDim S400000x128 ![0] bcast_S400000_S400000x128_0
      (Host.reduce IntOp.andi
        (andi (cmpi .sge (ConcatR.wrapCol s) (broadcastInDim S400000x1 ![] bcast_S_S400000x1 (constantI S_ 32 0#32)))
          (cmpi .sle (ConcatR.wrapCol s)
            (broadcastInDim S400000x1 ![0, 1] bcast_S1x1_S400000x1_0_1 (broadcastInDim S1x1 ![1] bcast_S1_S1x1_1 (constantI S1 32 24999#32)))))
        (constantI S_ 1 1#1) reducesTo_S400000x1_S400000_d1 h_S_))
    (ConcatR.rowsR nodes s)
    (broadcastInDim S400000x128 ![] bcast_S_S400000x128 (constant (F := Ideal) S_ .f32 0x7FC00000#32))

set_option maxHeartbeats 4000000 in
theorem send_rows (W : Valuation τ sig (Elt Ideal)) :
    after (hostOps0 (F := Ideal)) W (Proc.devRef .tc main_v0)
      = takeRows (W (Proc.devRef .tc main_arg0)) (W (Proc.devRef .tc main_arg3)) := by
  after_results_simp
  simp only [TRef.ofBuf, TRef.toBuf, cast_cast, cast_eq]
  rfl

set_option maxHeartbeats 4000000 in
theorem recv_rows (W : Valuation τ sig (Elt Ideal)) :
    after (hostOps0_1 (F := Ideal)) W (Proc.devRef .tc main_v1)
      = takeRows (W (Proc.devRef .tc main_arg0)) (W (Proc.devRef .tc main_arg4)) := by
  after_results_simp
  simp only [TRef.ofBuf, TRef.toBuf, cast_cast, cast_eq]
  rfl

set_option maxHeartbeats 4000000 in
theorem keep_send (W : Valuation τ sig (Elt Ideal)) :
    after (List.flatten [hostOps0_1 (F := Ideal), hostOps0_2, hostOps0_3, hostOps0_4, hostOps0_5, hostOps0_6, hostOps0_7, hostOps0_8]) W (Proc.devRef .tc main_v0)
      = W (Proc.devRef .tc main_v0) := by
  simp only [hostOps0_1, hostOps0_2, hostOps0_3, hostOps0_4, hostOps0_5, hostOps0_6, hostOps0_7, hostOps0_8,
    List.flatten_cons, List.flatten_nil, List.append_nil, List.cons_append, List.nil_append]
  after_results_simp

set_option maxHeartbeats 4000000 in
theorem keep_recv (W : Valuation τ sig (Elt Ideal)) :
    after (List.flatten [hostOps0_2 (F := Ideal), hostOps0_3, hostOps0_4, hostOps0_5, hostOps0_6, hostOps0_7, hostOps0_8]) W (Proc.devRef .tc main_v1)
      = W (Proc.devRef .tc main_v1) := by
  simp only [hostOps0_2, hostOps0_3, hostOps0_4, hostOps0_5, hostOps0_6, hostOps0_7, hostOps0_8,
    List.flatten_cons, List.flatten_nil, List.append_nil, List.cons_append, List.nil_append]
  after_results_simp

theorem last_concat (W : Valuation τ sig (Elt Ideal)) :
    after (hostOps0_9 (F := Ideal)) W (Proc.devRef .tc main_v20)
      = truncf (F := Ideal) .bf16 (concatenate S400000x512 1 [⟨S400000x128, W (Proc.devRef .tc main_v0)⟩, ⟨S400000x128, W (Proc.devRef .tc main_v1)⟩,
          ⟨S400000x128, W (Proc.devRef .tc main_arg1)⟩, ⟨S400000x128, W (Proc.devRef .tc main_v18)⟩]
          concatenates_S400000x128_S400000x128_S400000x128_S400000x128_S400000x512_d1) bitsLt_bf16_f32 := by
  after_results
  rfl

/-- Where the word of row e lies in [0, 25000) no wrapped word is out of range, so the filled lookup is the plain one. -/
theorem takeRows_apply (nodes : FVec Ideal S25000x128 .f32) (s : IVec S400000 32) (e : Fin 400000) (q : Fin 128)
    (h : 0 ≤ (s (ix1 e)).toInt ∧ (s (ix1 e)).toInt < 25000) : takeRows nodes s (ix2 e q) = ConcatR.rowsR nodes s (ix2 e q) := by
  have hhi : (24999#32 : BitVec 32).toInt = 24999 := by decide
  obtain ⟨h0, h1⟩ := h
  unfold takeRows ConcatR.wrapCol
  exact take_fill_apply s _ _ _ _ _ (ConcatR.rowsR nodes s) _ bcast_S400000_S400000x1_0 reducesTo_S400000x1_S400000_d1 h_S_
    bcast_S400000_S400000x128_0 e q 24999#32 rfl rfl rfl rfl h0 (by omega)

variable (m : KM) (c : Dev Cert.KernelIdeal.nD)

/-- The kernel program's operand: the two filled lookups, the edge rows and the repeated global rows side by side, rounded. -/
theorem concatK_eq : concatK m c
    = truncf (F := Ideal) .bf16 (concatenate S400000x512 1 [⟨S400000x128, takeRows (m ((c.tc : Thread nD τ).loc main_arg0)) (m ((c.tc : Thread nD τ).loc main_arg3))⟩,
        ⟨S400000x128, takeRows (m ((c.tc : Thread nD τ).loc main_arg0)) (m ((c.tc : Thread nD τ).loc main_arg4))⟩,
        ⟨S400000x128, m ((c.tc : Thread nD τ).loc main_arg1)⟩,
        ⟨S400000x128, ConcatR.globRowsR (m ((c.tc : Thread nD τ).loc main_arg6)) (m ((c.tc : Thread nD τ).loc main_arg2))⟩]
        concatenates_S400000x128_S400000x128_S400000x128_S400000x128_S400000x512_d1) bitsLt_bf16_f32 := by
  show V0 m c (Proc.devRef .tc main_v20) = _
  rw [V0_split, last_concat, Wpre_arg m c main_arg1 (by decide), ConcatGlob.glob_rows]
  unfold Wpre
  rw [List.flatten_cons, after_append, keep_send, send_rows, List.flatten_cons, after_append, keep_recv, recv_rows,
    ConcatGlob.arg_through _ _ hostOps0_avoids main_arg0 (by decide), ConcatGlob.arg_through _ _ hostOps0_avoids main_arg4 (by decide)] <;> rfl

end K

section Final
variable [Cert.Pre_finite_inputs.Facts]

/-- Piece by piece: in-range words make the filled lookups plain ones, and the other two pieces are the same terms on both sides. -/
theorem concat_at (m : KM) (m' : RM) (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e : Fin 400000) (j : Fin 512) : concatK m c (ix2 e j) = concatR m' c (ix2 e j) := by
  have hr := Cert.Proof.PreFacts.ranges m hpre c
  rw [concatK_eq, Cert.Proof.ConcatR.concatR_eq, h0, h1, h2, h3, h4, h6, truncf_apply]
  exact concat4_congr _ _ _ _ _ _ _ _ _ _ e j (fun q => takeRows_apply _ _ e q (hr.1 e)) (fun q => takeRows_apply _ _ e q (hr.2 e))
    (fun _ => rfl) (fun _ => rfl)

end Final

end Cert.Proof.Concat

end
-- ==== Proof.Bridge.lean ====
import proofs.«414085_j14620068675791_1_alg».proof.Proof.KIValue
import proofs.«414085_j14620068675791_1_alg».proof.Proof.RefValue
import proofs.«414085_j14620068675791_1_alg».proof.Proof.Concat

noncomputable section

namespace Cert.Proof.Bridge

open Cert.Proof.Val Idealize.ShloMosaic Idealize.ShloMosaic.TcCoe Idealize.SL.Sem Idealize.ShloMosaic.ValueIdx

-- The perceptron at a row depends on its operands only through that row and the four weight arrays.
theorem mlpAt_congr {x x' : (⟨2, ![400000, 512]⟩ : Shape).Idx → EReal} {W0 W0' : (⟨2, ![512, 256]⟩ : Shape).Idx → EReal} {b0 b0' : (⟨1, ![256]⟩ : Shape).Idx → EReal}
    {W1 W1' : (⟨2, ![256, 128]⟩ : Shape).Idx → EReal} {b1 b1' : (⟨1, ![128]⟩ : Shape).Idx → EReal} (hx : ∀ e j, x' (ix2 e j) = x (ix2 e j))
    (e0 : W0' = W0) (e1 : b0' = b0) (e2 : W1' = W1) (e3 : b1' = b1) (e : Fin 400000) (n : Fin 128) :
    mlpAt x' W0' b0' W1' b1' e n = mlpAt x W0 b0 W1 b1 e n := by
  subst e0 e1 e2 e3
  unfold mlpAt
  rw [show (fun j => x' (ix2 e j)) = fun j => x (ix2 e j) from funext (hx e)]

variable [Cert.Pre_finite_inputs.Facts]

theorem msgs_eq (m : KM) (m' : RM) (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    msgsR m' c = msgsK m c := by
  funext i
  obtain ⟨e, n, rfl⟩ : ∃ (e : Fin 400000) (n : Fin 128), i = ix2 e n := ⟨i 0, i 1, eq_ix2 i⟩
  rw [Cert.Proof.RefValue.msgsR_at, Cert.Proof.KIValue.msgsK_at]
  exact mlpAt_congr (fun e j => (Cert.Proof.Concat.concat_at m m' c hpre h0 h1 h2 h3 h4 h6 e j).symm) h7 h8 h9 h10 e n

theorem edges_eq (m : KM) (m' : RM) (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    edgesR m' c = edgesK m c := by
  funext i
  obtain ⟨e, n, rfl⟩ : ∃ (e : Fin 400000) (n : Fin 128), i = ix2 e n := ⟨i 0, i 1, eq_ix2 i⟩
  rw [Cert.Proof.RefValue.edgesR_at, Cert.Proof.KIValue.edgesK_at]
  exact mlpAt_congr (fun e j => (Cert.Proof.Concat.concat_at m m' c hpre h0 h1 h2 h3 h4 h6 e j).symm) h11 h12 h13 h14 e n

end Cert.Proof.Bridge

end
-- ==== Proof.TailKeeps.lean ====
import proofs.«414085_j14620068675791_1_alg».proof.Proof.ValDefsR

noncomputable section

namespace Cert.Proof.Tail

open Idealize.ShloMosaic Idealize.ShloMosaic.TcCoe Idealize.SL.Sem

section
variable {τ : Topo} {sig : RefSig} {Val : EltTy → Type}

def Below (n : ℕ) (op : HloOp τ sig Val) : Prop :=
  ∀ r : Ref sig .tc, r.idx.val < n → Proc.devRef (τ := τ) .tc r ∉ op.writes

-- No operation of the stretch writes a buffer numbered below `n`.
class Keeps (l : List (HloOp τ sig Val)) (n : outParam ℕ) : Prop where
  out : l.Forall (Below n)

theorem below_of_writes {n : ℕ} {op : HloOp τ sig Val} {y : Ref sig .tc}
    (hw : op.writes = {Proc.devRef (τ := τ) .tc y}) (hy : n ≤ y.idx.val) : Below n op := by
  intro r hr hmem
  rw [hw, Finset.mem_singleton] at hmem
  have := Proc.devRef_injective _ hmem
  subst this
  omega

-- A buffer numbered below every buffer the stretch writes holds after it what it held before.
theorem after_keeps (l : List (HloOp τ sig Val)) {n : ℕ} [h : Keeps l n] (V : Valuation τ sig Val) (r : Ref sig .tc)
    (hr : r.idx.val < n) : StableHlo.after l V (no_index (Proc.devRef .tc r)) = V (Proc.devRef .tc r) :=
  StableHlo.after_of_forall_not_mem _ V fun op hop => List.forall_iff_forall_mem.mp h.out op hop r hr

end

local macro "keeps_stretch" : tactic =>
  `(tactic| (refine ⟨?_⟩; simp only [List.Forall]; (repeat' apply And.intro) <;> exact below_of_writes rfl (by decide)))

open Cert.ReferenceIdeal.Hand Cert.KernelIdeal.Gen

instance : Keeps (ops0 (F := Ideal)) 23 := ⟨ops0_keeps⟩
instance : Keeps (ops1 (F := Ideal)) 23 := ⟨ops1_keeps⟩
instance : Keeps (ops2 (F := Ideal)) 23 := ⟨ops2_keeps⟩
instance : Keeps (ops3 (F := Ideal)) 23 := ⟨ops3_keeps⟩
instance : Keeps (ops4 (F := Ideal)) 23 := ⟨ops4_keeps⟩
instance : Keeps (ops5 (F := Ideal)) 23 := ⟨ops5_keeps⟩
instance : Keeps (ops6 (F := Ideal)) 23 := ⟨ops6_keeps⟩
instance : Keeps (ops7 (F := Ideal)) 23 := ⟨ops7_keeps⟩
instance : Keeps (ops8 (F := Ideal)) 23 := ⟨ops8_keeps⟩
instance : Keeps (ops9 (F := Ideal)) 23 := ⟨ops9_keeps⟩
instance : Keeps (ops10 (F := Ideal)) 23 := ⟨ops10_keeps⟩
instance : Keeps (ops11 (F := Ideal)) 23 := ⟨ops11_keeps⟩
instance : Keeps (ops12 (F := Ideal)) 23 := ⟨ops12_keeps⟩
instance : Keeps (ops13 (F := Ideal)) 23 := ⟨ops13_keeps⟩
instance : Keeps (ops14 (F := Ideal)) 116 := by keeps_stretch
instance : Keeps (ops15 (F := Ideal)) 120 := by keeps_stretch
instance : Keeps (ops16 (F := Ideal)) 120 := by keeps_stretch
instance : Keeps (ops17 (F := Ideal)) 120 := by keeps_stretch
instance : Keeps (ops18 (F := Ideal)) 120 := by keeps_stretch
instance : Keeps (ops19 (F := Ideal)) 120 := by keeps_stretch
instance : Keeps (ops20 (F := Ideal)) 142 := by keeps_stretch
instance : Keeps (ops21 (F := Ideal)) 143 := by keeps_stretch
instance : Keeps (ops22 (F := Ideal)) 146 := by keeps_stretch
instance : Keeps (ops23 (F := Ideal)) 150 := by keeps_stretch
instance : Keeps (ops24 (F := Ideal)) 153 := by keeps_stretch
instance : Keeps (ops25 (F := Ideal)) 166 := by keeps_stretch
instance : Keeps (ops26 (F := Ideal)) 169 := by keeps_stretch
instance : Keeps (ops27 (F := Ideal)) 172 := by keeps_stretch
instance : Keeps (ops28 (F := Ideal)) 194 := by keeps_stretch
instance : Keeps (ops29 (F := Ideal)) 195 := by keeps_stretch
instance : Keeps (ops30 (F := Ideal)) 198 := by keeps_stretch
instance : Keeps (ops31 (F := Ideal)) 202 := by keeps_stretch
instance : Keeps (ops32 (F := Ideal)) 205 := by keeps_stretch
instance : Keeps (ops33 (F := Ideal)) 218 := by keeps_stretch
instance : Keeps (ops34 (F := Ideal)) 221 := by keeps_stretch
instance : Keeps (ops35 (F := Ideal)) 224 := by keeps_stretch
instance : Keeps (ops36 (F := Ideal)) 246 := by keeps_stretch
instance : Keeps (ops37 (F := Ideal)) 249 := by keeps_stretch
instance : Keeps (ops38 (F := Ideal)) 250 := by keeps_stretch
instance : Keeps (ops39 (F := Ideal)) 254 := by keeps_stretch
instance : Keeps (ops40 (F := Ideal)) 258 := by keeps_stretch
instance : Keeps (ops41 (F := Ideal)) 265 := by keeps_stretch
instance : Keeps (ops42 (F := Ideal)) 269 := by keeps_stretch
instance : Keeps (ops43 (F := Ideal)) 276 := by keeps_stretch
instance : Keeps (ops44 (F := Ideal)) 280 := by keeps_stretch
instance : Keeps (ops45 (F := Ideal)) 287 := by keeps_stretch
instance : Keeps (ops46 (F := Ideal)) 292 := by keeps_stretch
instance : Keeps (hostOps1 (F := Ideal)) 133 := by keeps_stretch
instance : Keeps (hostOps1_1 (F := Ideal)) 138 := by keeps_stretch
instance : Keeps (hostOps1_2 (F := Ideal)) 141 := by keeps_stretch
instance : Keeps (hostOps1_3 (F := Ideal)) 145 := by keeps_stretch
instance : Keeps (hostOps1_4 (F := Ideal)) 148 := by keeps_stretch
instance : Keeps (hostOps1_5 (F := Ideal)) 161 := by keeps_stretch
instance : Keeps (hostOps1_6 (F := Ideal)) 164 := by keeps_stretch
instance : Keeps (hostOps1_7 (F := Ideal)) 167 := by keeps_stretch
instance : Keeps (hostOps1_8 (F := Ideal)) 189 := by keeps_stretch
instance : Keeps (hostOps1_9 (F := Ideal)) 190 := by keeps_stretch
instance : Keeps (hostOps1_10 (F := Ideal)) 193 := by keeps_stretch
instance : Keeps (hostOps1_11 (F := Ideal)) 197 := by keeps_stretch
instance : Keeps (hostOps1_12 (F := Ideal)) 200 := by keeps_stretch
instance : Keeps (hostOps1_13 (F := Ideal)) 213 := by keeps_stretch
instance : Keeps (hostOps1_14 (F := Ideal)) 216 := by keeps_stretch
instance : Keeps (hostOps1_15 (F := Ideal)) 219 := by keeps_stretch
instance : Keeps (hostOps1_16 (F := Ideal)) 241 := by keeps_stretch
instance : Keeps (hostOps1_17 (F := Ideal)) 253 := by keeps_stretch
instance : Keeps (hostOps1_18 (F := Ideal)) 260 := by keeps_stretch
instance : Keeps (hostOps1_19 (F := Ideal)) 264 := by keeps_stretch
instance : Keeps (hostOps1_20 (F := Ideal)) 271 := by keeps_stretch
instance : Keeps (hostOps1_21 (F := Ideal)) 275 := by keeps_stretch
instance : Keeps (hostOps1_22 (F := Ideal)) 282 := by keeps_stretch
instance : Keeps (hostOps1_23 (F := Ideal)) 287 := by keeps_stretch

end Cert.Proof.Tail

end
-- ==== Proof.KIExit.lean ====
import proofs.«414085_j14620068675791_1_alg».proof.Proof.ValDefs
import proofs.«414085_j14620068675791_1_alg».proof.Proof.KIWindows

set_option maxRecDepth 16384

noncomputable section

namespace Cert.Proof.Val

open Cert.KernelIdeal Cert.KernelIdeal.Gen Cert.KernelIdeal.Hand
open Idealize.ShloMosaic Idealize.ShloMosaic.TcCoe Idealize.SL.Sem
open Idealize.ShloMosaic.ValueIdx
open Cert.Proof.KIValue

abbrev exitK (m : KM) (c : Dev Cert.KernelIdeal.nD) : Valuation Cert.KernelIdeal.τ Cert.KernelIdeal.sig (Elt Ideal) :=
  Pipeline.withArrays Cert.KernelIdeal.spec0 c (Cert.KernelIdeal.Hand.V0 m c) fun w => (Cert.KernelIdeal.Hand.dats m 0 c).arrAt w Cert.KernelIdeal.cfg0.N

theorem globK_eq (m : KM) (c : Dev Cert.KernelIdeal.nD) :
    globK m c = (StableHlo.after Cert.KernelIdeal.Hand.postOpss.flatten (exitK m c) (Proc.devRef .tc Cert.KernelIdeal.main_v95) : Cert.KernelIdeal.S8x128.Idx → EReal) := rfl

section AnyFloat

variable {F : FTy → Type} [FloatOps F]
variable (m : (ℓ : Loc nD τ sig) → Buf (Elt F) ℓ)

theorem hostOps0_9_avoids : (hostOps0_9 : List (HloOp τ sig (Elt F))).Forall fun op => ∀ r ∈ argRefs, Proc.devRef .tc r ∉ op.writes := by
  repeat' apply And.intro
  all_goals exact avoids_of_not_mem (by decide)

theorem V0_arg (c : Dev nD) (r : Ref sig .tc) (hr : r ∈ argRefs) :
    V0 m c (Proc.devRef .tc r) = m ((c.tc : Thread nD τ).loc r) := by
  rw [V0_split, StableHlo.after_of_forall_not_mem hostOps0_9 _
    (fun op hop => (List.forall_iff_forall_mem.mp hostOps0_9_avoids) op hop r hr)]
  exact Wpre_arg m c r hr

theorem arg_not_arr : ∀ r ∈ argRefs, ∀ w, Pipeline.arrRef spec0 w ≠ r := by decide

end AnyFloat

-- An argument is no array of the region, and no operation before the region writes it.
theorem exitK_arg (m : KM) (c : Dev Cert.KernelIdeal.nD) (r : Ref Cert.KernelIdeal.sig .tc) (hr : r ∈ argRefs) :
    exitK m c (Proc.devRef .tc r) = m ((c.tc : Thread Cert.KernelIdeal.nD Cert.KernelIdeal.τ).loc r) :=
  (Pipeline.withArrays_of_ne spec0 c _ _ r (arg_not_arr r hr)).trans (V0_arg m c r hr)

theorem exitK_msgs (m : KM) (c : Dev Cert.KernelIdeal.nD) :
    (exitK m c (Proc.devRef .tc Cert.KernelIdeal.main_v29_0) : Cert.KernelIdeal.S400000x128.Idx → EReal) = msgsK m c :=
  Pipeline.withArrays_arr spec0 launch0.win.arr_inj c _ _ 9

end Cert.Proof.Val

end
-- ==== Proof.Tail.lean ====
import proofs.«414085_j14620068675791_1_alg».proof.Proof.TailKeeps
import proofs.«414085_j14620068675791_1_alg».proof.Proof.KIExit

noncomputable section

namespace Cert.Proof.Tail

open Idealize.ShloMosaic Idealize.ShloMosaic.TcCoe Idealize.SL.Sem
open Cert.Proof.Val

-- Both programs scatter-add the message rows into a zero array at the receivers, with the same three operations.
theorem nodes_step (W1 : Valuation Cert.ReferenceIdeal.τ Cert.ReferenceIdeal.sig (Elt Ideal)) (W2 : Valuation Cert.KernelIdeal.τ Cert.KernelIdeal.sig (Elt Ideal))
    (e4 : W1 (Proc.devRef .tc Cert.ReferenceIdeal.main_arg4) = W2 (Proc.devRef .tc Cert.KernelIdeal.main_arg4))
    (em : W1 (Proc.devRef .tc Cert.ReferenceIdeal.main_v41) = W2 (Proc.devRef .tc Cert.KernelIdeal.main_v29_0)) :
    StableHlo.after (Cert.ReferenceIdeal.Hand.ops14 (F := Ideal)) W1 (Proc.devRef .tc Cert.ReferenceIdeal.main_v44)
      = StableHlo.after (Cert.KernelIdeal.Gen.hostOps1 (F := Ideal)) W2 (Proc.devRef .tc Cert.KernelIdeal.main_v32) := by
  after_results
  rw [e4, em]
  rfl

theorem nodes_eq (m : KM) (m' : RM) (c : Dev Cert.KernelIdeal.nD)
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (hmsgs : msgsR m' c = msgsK m c) : nodesR m' c = nodesK m c := by
  rw [show nodesK m c = StableHlo.after (Cert.KernelIdeal.Hand.postOpss (F := Ideal)).flatten (exitK m c) (Proc.devRef .tc Cert.KernelIdeal.main_v32) from rfl]
  simp (disch := decide) only [nodesR, msgsR, afterR, Cert.ReferenceIdeal.Hand.ops, Cert.ReferenceIdeal.Hand.opss, Cert.KernelIdeal.Hand.postOpss, List.flatten_cons, List.flatten_nil, List.append_nil, StableHlo.after_append, after_keeps] at hmsgs ⊢
  refine nodes_step _ _ ?_ (hmsgs.trans (exitK_msgs m c).symm)
  simp (disch := decide) only [after_keeps]
  exact h4.trans (exitK_arg m c _ (by decide)).symm

end Cert.Proof.Tail

end
-- ==== Proof.TailIdsN.lean ====
import proofs.«414085_j14620068675791_1_alg».proof.Proof.TailKeeps

noncomputable section

namespace Cert.Proof.Tail

open Idealize.ShloMosaic Idealize.ShloMosaic.TcCoe Idealize.SL.Sem Idealize.ShloMosaic.StableHlo
open Cert.ReferenceIdeal.Hand Cert.KernelIdeal.Gen

variable (W1 : Valuation Cert.ReferenceIdeal.τ Cert.ReferenceIdeal.sig (Elt Ideal)) (W2 : Valuation Cert.KernelIdeal.τ Cert.KernelIdeal.sig (Elt Ideal))

namespace IdsN

theorem st0 :
    after ops20 W1 (Proc.devRef .tc Cert.ReferenceIdeal.main_v55)
      = after hostOps1 W2 (Proc.devRef .tc Cert.KernelIdeal.main_v33) := by
  after_results_simp
  try rfl

theorem st1 (e : W1 (Proc.devRef .tc Cert.ReferenceIdeal.main_arg5) = W2 (Proc.devRef .tc Cert.KernelIdeal.main_arg5)) :
    after ops21 W1 (Proc.devRef .tc Cert.ReferenceIdeal.main_v56)
      = after hostOps1_1 W2 (Proc.devRef .tc Cert.KernelIdeal.main_v34) := by
  after_results
  rw [e]

theorem rest
    (e1 : W1 (Proc.devRef .tc Cert.ReferenceIdeal.main_v55) = W2 (Proc.devRef .tc Cert.KernelIdeal.main_v33))
    (e2 : W1 (Proc.devRef .tc Cert.ReferenceIdeal.main_v56) = W2 (Proc.devRef .tc Cert.KernelIdeal.main_v34)) :
    after ops27 (after ops26 (after ops25 (after ops24 (after ops23 (after ops22 W1))))) (Proc.devRef .tc Cert.ReferenceIdeal.main_v72)
      = after hostOps1_7 (after hostOps1_6 (after hostOps1_5 (after hostOps1_4 (after hostOps1_3 (after hostOps1_2 W2))))) (Proc.devRef .tc Cert.KernelIdeal.main_v50) := by
  after_results_simp
  rw [e1, e2]
  try rfl

end IdsN

-- Each node's graph number: the rolled counts, cleared at the front and summed, mark each graph's first node; a running sum of the marks, less one, is looked up in 0, 1, ..., 7.
theorem ids_nodes (e : W1 (Proc.devRef .tc Cert.ReferenceIdeal.main_arg5) = W2 (Proc.devRef .tc Cert.KernelIdeal.main_arg5)) :
    after ops27 (after ops26 (after ops25 (after ops24 (after ops23 (after ops22 (after ops21 (after ops20 W1))))))) (Proc.devRef .tc Cert.ReferenceIdeal.main_v72)
      = after hostOps1_7 (after hostOps1_6 (after hostOps1_5 (after hostOps1_4 (after hostOps1_3 (after hostOps1_2 (after hostOps1_1 (after hostOps1 W2))))))) (Proc.devRef .tc Cert.KernelIdeal.main_v50) := by
  refine IdsN.rest _ _ ?_ (IdsN.st1 _ _ ?_)
  · simp (disch := decide) only [after_keeps]
    exact IdsN.st0 W1 W2
  · simp (disch := decide) only [after_keeps]
    exact e

end Cert.Proof.Tail

end
-- ==== Proof.TailIdsE.lean ====
import proofs.«414085_j14620068675791_1_alg».proof.Proof.TailKeeps

noncomputable section

namespace Cert.Proof.Tail

open Idealize.ShloMosaic Idealize.ShloMosaic.TcCoe Idealize.SL.Sem Idealize.ShloMosaic.StableHlo
open Cert.ReferenceIdeal.Hand Cert.KernelIdeal.Gen

variable (W1 : Valuation Cert.ReferenceIdeal.τ Cert.ReferenceIdeal.sig (Elt Ideal)) (W2 : Valuation Cert.KernelIdeal.τ Cert.KernelIdeal.sig (Elt Ideal))

namespace IdsE

theorem st0 :
    after ops28 W1 (Proc.devRef .tc Cert.ReferenceIdeal.main_v73)
      = after hostOps1_8 W2 (Proc.devRef .tc Cert.KernelIdeal.main_v51) := by
  after_results_simp
  try rfl

theorem st1 (e : W1 (Proc.devRef .tc Cert.ReferenceIdeal.main_arg6) = W2 (Proc.devRef .tc Cert.KernelIdeal.main_arg6)) :
    after ops29 W1 (Proc.devRef .tc Cert.ReferenceIdeal.main_v74)
      = after hostOps1_9 W2 (Proc.devRef .tc Cert.KernelIdeal.main_v52) := by
  after_results
  rw [e]

theorem rest
    (e1 : W1 (Proc.devRef .tc Cert.ReferenceIdeal.main_v73) = W2 (Proc.devRef .tc Cert.KernelIdeal.main_v51))
    (e2 : W1 (Proc.devRef .tc Cert.ReferenceIdeal.main_v74) = W2 (Proc.devRef .tc Cert.KernelIdeal.main_v52)) :
    after ops35 (after ops34 (after ops33 (after ops32 (after ops31 (after ops30 W1))))) (Proc.devRef .tc Cert.ReferenceIdeal.main_v90)
      = after hostOps1_15 (after hostOps1_14 (after hostOps1_13 (after hostOps1_12 (after hostOps1_11 (after hostOps1_10 W2))))) (Proc.devRef .tc Cert.KernelIdeal.main_v68) := by
  after_results_simp
  rw [e1, e2]
  try rfl

end IdsE

-- Each edge's graph number, by the same operations on the edge counts.
theorem ids_edges (e : W1 (Proc.devRef .tc Cert.ReferenceIdeal.main_arg6) = W2 (Proc.devRef .tc Cert.KernelIdeal.main_arg6)) :
    after ops35 (after ops34 (after ops33 (after ops32 (after ops31 (after ops30 (after ops29 (after ops28 W1))))))) (Proc.devRef .tc Cert.ReferenceIdeal.main_v90)
      = after hostOps1_15 (after hostOps1_14 (after hostOps1_13 (after hostOps1_12 (after hostOps1_11 (after hostOps1_10 (after hostOps1_9 (after hostOps1_8 W2))))))) (Proc.devRef .tc Cert.KernelIdeal.main_v68) := by
  refine IdsE.rest _ _ ?_ (IdsE.st1 _ _ ?_)
  · simp (disch := decide) only [after_keeps]
    exact IdsE.st0 W1 W2
  · simp (disch := decide) only [after_keeps]
    exact e

end Cert.Proof.Tail

end
-- ==== Proof.TailSums.lean ====
import proofs.«414085_j14620068675791_1_alg».proof.Proof.ValDefsR

noncomputable section

namespace Cert.Proof.Tail

open Idealize.ShloMosaic Idealize.ShloMosaic.TcCoe Idealize.SL.Sem Idealize.ShloMosaic.StableHlo
open Cert.ReferenceIdeal.Hand Cert.KernelIdeal.Gen

variable (W1 : Valuation Cert.ReferenceIdeal.τ Cert.ReferenceIdeal.sig (Elt Ideal)) (W2 : Valuation Cert.KernelIdeal.τ Cert.KernelIdeal.sig (Elt Ideal))

-- The node rows are added up graph by graph.
theorem sumN
    (eN : W1 (Proc.devRef .tc Cert.ReferenceIdeal.main_v72) = W2 (Proc.devRef .tc Cert.KernelIdeal.main_v50))
    (e0 : W1 (Proc.devRef .tc Cert.ReferenceIdeal.main_arg0) = W2 (Proc.devRef .tc Cert.KernelIdeal.main_arg0)) :
    after ops39 (after ops38 (after ops37 (after ops36 W1))) (Proc.devRef .tc Cert.ReferenceIdeal.main_v93)
      = after hostOps1_16 W2 (Proc.devRef .tc Cert.KernelIdeal.main_v71) := by
  after_results_simp
  rw [eN, e0]
  try rfl

-- The edge rows are added up graph by graph.
theorem sumE
    (eE : W1 (Proc.devRef .tc Cert.ReferenceIdeal.main_v90) = W2 (Proc.devRef .tc Cert.KernelIdeal.main_v68))
    (e1 : W1 (Proc.devRef .tc Cert.ReferenceIdeal.main_arg1) = W2 (Proc.devRef .tc Cert.KernelIdeal.main_arg1)) :
    after ops39 (after ops38 (after ops37 (after ops36 W1))) (Proc.devRef .tc Cert.ReferenceIdeal.main_v96)
      = after hostOps1_16 W2 (Proc.devRef .tc Cert.KernelIdeal.main_v74) := by
  after_results_simp
  rw [eE, e1]
  try rfl

-- The global rows pass through their dense layer and its rectifier.
theorem layerG
    (e2 : W1 (Proc.devRef .tc Cert.ReferenceIdeal.main_arg2) = W2 (Proc.devRef .tc Cert.KernelIdeal.main_arg2))
    (e19 : W1 (Proc.devRef .tc Cert.ReferenceIdeal.main_arg19) = W2 (Proc.devRef .tc Cert.KernelIdeal.main_arg19))
    (e20 : W1 (Proc.devRef .tc Cert.ReferenceIdeal.main_arg20) = W2 (Proc.devRef .tc Cert.KernelIdeal.main_arg20)) :
    after ops40 (after ops39 (after ops38 (after ops37 (after ops36 W1)))) (Proc.devRef .tc Cert.ReferenceIdeal.main_v101)
      = after hostOps1_17 (after hostOps1_16 W2) (Proc.devRef .tc Cert.KernelIdeal.main_v79) := by
  after_results_simp
  try simp only [StableHlo.TRef.ofBuf, StableHlo.TRef.toBuf, cast_cast, cast_eq]
  rw [e2, e19, e20]
  try rfl

end Cert.Proof.Tail

end
-- ==== Proof.TailGlob.lean ====
import proofs.«414085_j14620068675791_1_alg».proof.Proof.Tail
import proofs.«414085_j14620068675791_1_alg».proof.Proof.TailIdsN
import proofs.«414085_j14620068675791_1_alg».proof.Proof.TailIdsE
import proofs.«414085_j14620068675791_1_alg».proof.Proof.TailSums

noncomputable section

namespace Cert.Proof.Tail

open Idealize.ShloMosaic Idealize.ShloMosaic.TcCoe Idealize.SL.Sem Idealize.ShloMosaic.StableHlo
open Cert.ReferenceIdeal.Hand Cert.KernelIdeal.Gen
open Cert.Proof.Val

variable (W1 : Valuation Cert.ReferenceIdeal.τ Cert.ReferenceIdeal.sig (Elt Ideal)) (W2 : Valuation Cert.KernelIdeal.τ Cert.KernelIdeal.sig (Elt Ideal))

-- The node sums pass through their dense layer and its rectifier.
theorem layerN
    (s : W1 (Proc.devRef .tc Cert.ReferenceIdeal.main_v93) = W2 (Proc.devRef .tc Cert.KernelIdeal.main_v71))
    (e15 : W1 (Proc.devRef .tc Cert.ReferenceIdeal.main_arg15) = W2 (Proc.devRef .tc Cert.KernelIdeal.main_arg15))
    (e16 : W1 (Proc.devRef .tc Cert.ReferenceIdeal.main_arg16) = W2 (Proc.devRef .tc Cert.KernelIdeal.main_arg16)) :
    after ops42 (after ops41 W1) (Proc.devRef .tc Cert.ReferenceIdeal.main_v106)
      = after hostOps1_19 (after hostOps1_18 W2) (Proc.devRef .tc Cert.KernelIdeal.main_v84) := by
  after_results_simp
  try simp only [StableHlo.TRef.ofBuf, StableHlo.TRef.toBuf, cast_cast, cast_eq]
  rw [s, e15, e16]
  try rfl

-- The edge sums pass through their dense layer and its rectifier.
theorem layerE
    (s : W1 (Proc.devRef .tc Cert.ReferenceIdeal.main_v96) = W2 (Proc.devRef .tc Cert.KernelIdeal.main_v74))
    (e17 : W1 (Proc.devRef .tc Cert.ReferenceIdeal.main_arg17) = W2 (Proc.devRef .tc Cert.KernelIdeal.main_arg17))
    (e18 : W1 (Proc.devRef .tc Cert.ReferenceIdeal.main_arg18) = W2 (Proc.devRef .tc Cert.KernelIdeal.main_arg18)) :
    after ops44 (after ops43 W1) (Proc.devRef .tc Cert.ReferenceIdeal.main_v111)
      = after hostOps1_21 (after hostOps1_20 W2) (Proc.devRef .tc Cert.KernelIdeal.main_v89) := by
  after_results_simp
  try simp only [StableHlo.TRef.ofBuf, StableHlo.TRef.toBuf, cast_cast, cast_eq]
  rw [s, e17, e18]
  try rfl

-- The three layers, side by side, pass through the last dense layer and its rectifier.
theorem layerOut
    (a : W1 (Proc.devRef .tc Cert.ReferenceIdeal.main_v101) = W2 (Proc.devRef .tc Cert.KernelIdeal.main_v79))
    (b : W1 (Proc.devRef .tc Cert.ReferenceIdeal.main_v106) = W2 (Proc.devRef .tc Cert.KernelIdeal.main_v84))
    (c : W1 (Proc.devRef .tc Cert.ReferenceIdeal.main_v111) = W2 (Proc.devRef .tc Cert.KernelIdeal.main_v89))
    (e21 : W1 (Proc.devRef .tc Cert.ReferenceIdeal.main_arg21) = W2 (Proc.devRef .tc Cert.KernelIdeal.main_arg21))
    (e22 : W1 (Proc.devRef .tc Cert.ReferenceIdeal.main_arg22) = W2 (Proc.devRef .tc Cert.KernelIdeal.main_arg22)) :
    after ops46 (after ops45 W1) (Proc.devRef .tc Cert.ReferenceIdeal.main_v117)
      = after hostOps1_23 (after hostOps1_22 W2) (Proc.devRef .tc Cert.KernelIdeal.main_v95) := by
  have a' : W1 (Proc.devRef .tc (![Cert.ReferenceIdeal.main_v101, Cert.ReferenceIdeal.main_v106, Cert.ReferenceIdeal.main_v111] 0)) = W2 (Proc.devRef .tc (![Cert.KernelIdeal.main_v79, Cert.KernelIdeal.main_v84, Cert.KernelIdeal.main_v89] 0)) := a
  have b' : W1 (Proc.devRef .tc (![Cert.ReferenceIdeal.main_v101, Cert.ReferenceIdeal.main_v106, Cert.ReferenceIdeal.main_v111] 1)) = W2 (Proc.devRef .tc (![Cert.KernelIdeal.main_v79, Cert.KernelIdeal.main_v84, Cert.KernelIdeal.main_v89] 1)) := b
  have c' : W1 (Proc.devRef .tc (![Cert.ReferenceIdeal.main_v101, Cert.ReferenceIdeal.main_v106, Cert.ReferenceIdeal.main_v111] 2)) = W2 (Proc.devRef .tc (![Cert.KernelIdeal.main_v79, Cert.KernelIdeal.main_v84, Cert.KernelIdeal.main_v89] 2)) := c
  after_results_simp
  try simp only [StableHlo.TRef.ofBuf, StableHlo.TRef.toBuf, cast_cast, cast_eq]
  rw [a', b', c', e21, e22]
  try rfl

-- Both lines apply the same operations in the same order, and a value is still in its buffer when a later stretch reads it.
theorem glob_eq (m : KM) (m' : RM) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    globR m' c = globK m c := by
  rw [globK_eq]
  simp only [globR, afterR, Cert.ReferenceIdeal.Hand.ops, Cert.ReferenceIdeal.Hand.opss, Cert.KernelIdeal.Hand.postOpss, List.flatten_cons, List.flatten_nil, List.append_nil, after_append]
  refine layerOut _ _ ?_ ?_ ?_ ?_ ?_
  · simp (disch := decide) only [after_keeps]
    refine layerG _ _ ?_ ?_ ?_
    · simp (disch := decide) only [after_keeps]; exact h2.trans (exitK_arg m c _ (by decide)).symm
    · simp (disch := decide) only [after_keeps]; exact h19.trans (exitK_arg m c _ (by decide)).symm
    · simp (disch := decide) only [after_keeps]; exact h20.trans (exitK_arg m c _ (by decide)).symm
  · simp (disch := decide) only [after_keeps]
    refine layerN _ _ ?_ ?_ ?_
    · simp (disch := decide) only [after_keeps]
      refine sumN _ _ ?_ ?_
      · simp (disch := decide) only [after_keeps]
        refine ids_nodes _ _ ?_
        simp (disch := decide) only [after_keeps]; exact h5.trans (exitK_arg m c _ (by decide)).symm
      · simp (disch := decide) only [after_keeps]; exact h0.trans (exitK_arg m c _ (by decide)).symm
    · simp (disch := decide) only [after_keeps]; exact h15.trans (exitK_arg m c _ (by decide)).symm
    · simp (disch := decide) only [after_keeps]; exact h16.trans (exitK_arg m c _ (by decide)).symm
  · refine layerE _ _ ?_ ?_ ?_
    · simp (disch := decide) only [after_keeps]
      refine sumE _ _ (ids_edges _ _ ?_) ?_
      · simp (disch := decide) only [after_keeps]; exact h6.trans (exitK_arg m c _ (by decide)).symm
      · simp (disch := decide) only [after_keeps]; exact h1.trans (exitK_arg m c _ (by decide)).symm
    · simp (disch := decide) only [after_keeps]; exact h17.trans (exitK_arg m c _ (by decide)).symm
    · simp (disch := decide) only [after_keeps]; exact h18.trans (exitK_arg m c _ (by decide)).symm
  · simp (disch := decide) only [after_keeps]; exact h21.trans (exitK_arg m c _ (by decide)).symm
  · simp (disch := decide) only [after_keeps]; exact h22.trans (exitK_arg m c _ (by decide)).symm

end Cert.Proof.Tail

end
-- ==== Proof.lean ====
/-
  One graph-network step: gather the sender and receiver rows, concatenate them with the edge rows and the per-graph
  globals repeated along the edges, apply two two-layer leaky-rectifier perceptrons per edge, scatter-add the messages
  at the receivers, and update the globals from per-graph sums.  The kernel program runs the two perceptrons in one
  region of 125 grid points between host lines; the reference is a straight line of host operations.  With sender and
  receiver indices in [0, 25000) the two gathers read the same row, rounding to the narrow float format is the
  identity on extended reals, a matrix product into a zero accumulator and a host contraction are the same finite
  sum, and the remaining host lines are the same operations on both sides.
-/
import proofs.«414085_j14620068675791_1_alg».proof.Defs
import proofs.«414085_j14620068675791_1_alg».proof.Proof.Gen.Kernel
import proofs.«414085_j14620068675791_1_alg».proof.Proof.Gen.KernelIdeal
import proofs.«414085_j14620068675791_1_alg».proof.Proof.Gen.ReferenceIdeal
import proofs.«414085_j14620068675791_1_alg».proof.Proof.Gen.Pre_finite_inputs
import proofs.«414085_j14620068675791_1_alg».proof.Proof.KBody
import proofs.«414085_j14620068675791_1_alg».proof.Proof.KIBody
import proofs.«414085_j14620068675791_1_alg».proof.Proof.RefRun
import proofs.«414085_j14620068675791_1_alg».proof.Proof.Bridge
import proofs.«414085_j14620068675791_1_alg».proof.Proof.Tail
import proofs.«414085_j14620068675791_1_alg».proof.Proof.TailGlob

set_option maxRecDepth 16384

noncomputable section

namespace Cert.Proof

open Cert.Proof.Val Idealize.ShloMosaic Idealize.ShloMosaic.TcCoe Idealize.SL.Sem

/-- Each argument is among the first 23 buffers of the table, which no host line and no window of the region writes. -/
theorem frame_p : Cert.frame_Kernel := fun m ρ _ =>
  (θ_run Cert.Kernel.defs _ _).mono (fun _ h c => by
    repeat' apply And.intro
    all_goals exact Cert.Kernel.Hand.arg_kept m h c _ rfl (by decide)) (Cert.Kernel.Hand.run_main (F := Bits) m ρ)

theorem frame_pi : Cert.frame_KernelIdeal := fun m ρ _ =>
  (θ_run Cert.KernelIdeal.defs _ _).mono (fun _ h c => by
    repeat' apply And.intro
    all_goals exact Cert.KernelIdeal.Hand.arg_kept m h c _ rfl (by decide)) (Cert.KernelIdeal.Hand.run_main (F := Ideal) m ρ)

/-- No operation of the reference's straight line writes an argument. -/
theorem frame_ri : Cert.frame_ReferenceIdeal := fun m ρ _ =>
  (θ_run Cert.ReferenceIdeal.defs _ _).mono (fun _ h c => by
    repeat' apply And.intro
    all_goals exact (h c _).trans (Cert.ReferenceIdeal.Hand.kept _ _ (by decide))) (Cert.ReferenceIdeal.Hand.run_raw (F := Ideal) m ρ)

/-- The ideal pass rewrote nothing. -/
theorem preserves : Cert.preserves_Kernel_KernelIdeal := trivial

/-- The updated edges are the edge perceptron of the same concatenated rows, the updated nodes the scatter-add of equal
    messages at the same receivers, the updated globals the same host computation of the same arguments. -/
theorem algebraic : Cert.algebraic_KernelIdeal_ReferenceIdeal := by
  intro m ρ m' ρ' hpre hagree
  refine ⟨fun c => nodesK m c, fun c => edgesK m c, fun c => globK m c, ?_, ?_⟩
  · refine (θ_run Cert.KernelIdeal.defs _ _).mono (fun r h c => ?_) (Cert.KernelIdeal.Hand.run_main (F := Ideal) m ρ)
    refine ⟨(h c).2 _ Cert.KernelIdeal.Hand.rest_main_v32, (h c).1 10, (h c).2 _ Cert.KernelIdeal.Hand.rest_main_v95, ?_⟩
    repeat' apply And.intro
    all_goals exact Cert.KernelIdeal.Hand.arg_kept m h c _ rfl (by decide)
  · refine (θ_run Cert.ReferenceIdeal.defs _ _).mono (fun r h c => ?_) (Cert.ReferenceIdeal.Hand.run_raw (F := Ideal) m' ρ')
    obtain ⟨h0, h1, h2, h3, h4, h5, h6, h7, h8, h9, h10, h11, h12, h13, h14, h15, h16, h17, h18, h19, h20, h21, h22⟩ := hagree c
    have hm := Cert.Proof.Bridge.msgs_eq m m' c hpre h0 h1 h2 h3 h4 h6 h7 h8 h9 h10
    refine ⟨(h c Cert.ReferenceIdeal.main_v44).trans (Cert.Proof.Tail.nodes_eq m m' c h4 hm),
      (h c Cert.ReferenceIdeal.main_v54).trans (Cert.Proof.Bridge.edges_eq m m' c hpre h0 h1 h2 h3 h4 h6 h11 h12 h13 h14),
      (h c Cert.ReferenceIdeal.main_v117).trans (Cert.Proof.Tail.glob_eq m m' c h0 h1 h2 h5 h6 h15 h16 h17 h18 h19 h20 h21 h22), ?_⟩
    repeat' apply And.intro
    all_goals exact (h c _).trans (Cert.ReferenceIdeal.Hand.kept _ _ (by decide))

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
